-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S64x10 .f32) (main_arg5 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x10 .f32 := Host.absf main_arg4
  let main_cst_6 : FVec F S_ .f32 := constant S_ .f32 0x7F800000#32
  let main_v20 : FVec F S64x10 .f32 := broadcastInDim S64x10 ![] bcast_S_S64x10 main_cst_6
  let main_v21 : IVec S64x10 1 := cmpf .olt main_v19 main_v20
  let main_c_7 : IVec S_ 1 := constantI S_ 1 1#1
  let main_v22 : IVec S_ 1 := (fun x v => Host.reduce IntOp.andi x v reducesTo_S64x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S8192x8192 .f32) (main_arg1 : FVec F S8192x64 .f32) (main_arg2 : FVec F S64x64 .f32) (main_arg3 : FVec F S64x64 .f32) (main_arg4 : FVec F S64x10 .f32) (main_arg5 : FVec F S10 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_v13 main_v16
-- ==== Kernel.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S8192x1 : Shape := ⟨2, ![8192, 1]⟩
abbrev S2048x1024 : Shape := ⟨2, ![2048, 1024]⟩
abbrev S2048x1 : Shape := ⟨2, ![2048, 1]⟩
abbrev S2048 : Shape := ⟨1, ![2048]⟩
abbrev S_ : Shape := ⟨0, ![]⟩
abbrev S1024x64 : Shape := ⟨2, ![1024, 64]⟩
abbrev S1024x1 : Shape := ⟨2, ![1024, 1]⟩
abbrev S2048x64 : Shape := ⟨2, ![2048, 64]⟩
abbrev S8192x10 : Shape := ⟨2, ![8192, 10]⟩
abbrev S1x10 : Shape := ⟨2, ![1, 10]⟩

abbrev nBuf : Space → Nat
  | .hbm => 28
  | .vmem => 28
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S64x10, .f32⟩
  | .hbm, ⟨5, _⟩ => ⟨S10, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S8192x1, .f32⟩
  | .hbm, ⟨12, _⟩ => ⟨S8192x1, .i1⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x64, .f32⟩
  | .hbm, ⟨23, _⟩ => ⟨S8192x64, .f32⟩
  | .hbm, ⟨24, _⟩ => ⟨S8192x10, .f32⟩
  | .hbm, ⟨25, _⟩ => ⟨S1x10, .f32⟩
  | .hbm, ⟨26, _⟩ => ⟨S8192x10, .f32⟩
  | .hbm, ⟨27, _⟩ => ⟨S8192x10, .f32⟩
  | .local _ .vmem, ⟨0, _⟩ => ⟨S2048x1024, .f32⟩
  | .local _ .vmem, ⟨1, _⟩ => ⟨S2048x1024, .f32⟩
  | .local _ .vmem, ⟨2, _⟩ => ⟨S2048x1, .f32⟩
  | .local _ .vmem, ⟨3, _⟩ => ⟨S2048x1, .f32⟩
  | .local _ .vmem, ⟨4, _⟩ => ⟨S2048x1024, .f32⟩
  | .local _ .vmem, ⟨5, _⟩ => ⟨S2048x1024, .f32⟩
  | .local _ .vmem, ⟨6, _⟩ => ⟨S1024x64, .f32⟩
  | .local _ .vmem, ⟨7, _⟩ => ⟨S1024x64, .f32⟩
  | .local _ .vmem, ⟨8, _⟩ => ⟨S64x64, .f32⟩
  | .local _ .vmem, ⟨9, _⟩ => ⟨S1024x1, .f32⟩
  | .local _ .vmem, ⟨10, _⟩ => ⟨S1024x1, .f32⟩
  | .local _ .vmem, ⟨11, _⟩ => ⟨S2048x1, .f32⟩
  | .local _ .vmem, ⟨12, _⟩ => ⟨S2048x1, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x1024, .f32⟩
  | .local _ .vmem, ⟨17, _⟩ => ⟨S2048x1024, .f32⟩
  | .local _ .vmem, ⟨18, _⟩ => ⟨S1024x64, .f32⟩
  | .local _ .vmem, ⟨19, _⟩ => ⟨S1024x64, .f32⟩
  | .local _ .vmem, ⟨20, _⟩ => ⟨S64x64, .f32⟩
  | .local _ .vmem, ⟨21, _⟩ => ⟨S1024x1, .f32⟩
  | .local _ .vmem, ⟨22, _⟩ => ⟨S1024x1, .f32⟩
  | .local _ .vmem, ⟨23, _⟩ => ⟨S2048x1, .f32⟩
  | .local _ .vmem, ⟨24, _⟩ => ⟨S2048x1, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  bcast_S_S8192x1 : S_.BroadcastsInDim S8192x1 (![] : Fin 0 → Fin S8192x1.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  broadcasts_S2048x1_S2048x64 : S2048x1.Broadcasts S2048x64
  shapeCasts_S1024x64_S1024x64 : S1024x64.ShapeCasts S1024x64
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S1024x64_S64x64_S1024x64_1_0_0_1_n_n_wf : DotDims.WF S1024x64 S64x64 S1024x64 [1] [0] [0] [1] [] []
  dot_S2048x1024_S1024x64_S2048x64_1_0_0_1_n_n_wf : DotDims.WF S2048x1024 S1024x64 S2048x64 [1] [0] [0] [1] [] []
  dot_S8192x64_S64x10_S8192x10_1_0_0_1_n_n_wf : DotDims.WF S8192x64 S64x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S8192x1.size a
  hwx0_1 : ∀ i : grid0.Coords, EltTy.bits .f32 = 32 ∨ (Rect.block (s := S8192x1) S2048x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x64.size a ≤ S8192x64.size a
  hwx1_5 : ∀ i : grid1.Coords, EltTy.bits .f32 = 32 ∨ (Rect.block (s := S8192x64) S2048x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S8192x1.size a
  hwx2_4 : ∀ i : grid2.Coords, EltTy.bits .f32 = 32 ∨ (Rect.block (s := S8192x1) S2048x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S8192x64.size a
  hwx2_5 : ∀ i : grid2.Coords, EltTy.bits .f32 = 32 ∨ (Rect.block (s := S8192x64) S2048x64.size (cc2_transform_5 i) (hinb2_5 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S2048x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7) S2048x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x64 : Shape := ⟨2, ![8192, 64]⟩
abbrev S64x64 : Shape := ⟨2, ![64, 64]⟩
abbrev S64x10 : Shape := ⟨2, ![64, 10]⟩
abbrev S10 : Shape := ⟨1, ![10]⟩
abbrev S_ : Shape := ⟨0, ![]⟩
abbrev S8192 : Shape := ⟨1, ![8192]⟩
abbrev S8192x1 : Shape := ⟨2, ![8192, 1]⟩
abbrev S8192x10 : Shape := ⟨2, ![8192, 10]⟩
abbrev S1x10 : Shape := ⟨2, ![1, 10]⟩

abbrev nBuf : Space → Nat
  | .hbm => 49
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x64, .f32⟩
  | .hbm, ⟨2, _⟩ => ⟨S64x64, .f32⟩
  | .hbm, ⟨3, _⟩ => ⟨S64x64, .f32⟩
  | .hbm, ⟨4, _⟩ => ⟨S64x10, .f32⟩
  | .hbm, ⟨5, _⟩ => ⟨S10, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .i1⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x64, .f32⟩
  | .hbm, ⟨24, _⟩ => ⟨S8192x1, .f32⟩
  | .hbm, ⟨25, _⟩ => ⟨S8192x1, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S_, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x1, .f32⟩
  | .hbm, ⟨36, _⟩ => ⟨S8192x1, .f32⟩
  | .hbm, ⟨37, _⟩ => ⟨S8192x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x10, .f32⟩
  | .hbm, ⟨46, _⟩ => ⟨S1x10, .f32⟩
  | .hbm, ⟨47, _⟩ => ⟨S8192x10, .f32⟩
  | .hbm, ⟨48, _⟩ => ⟨S8192x10, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_cst : Ref sig .tc := ⟨.hbm, 31, rfl⟩
abbrev main_call2_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call3_cst : Ref sig .tc := ⟨.hbm, 42, rfl⟩
abbrev main_call3_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  dot_S8192x64_S64x10_S8192x10_1_0_0_1_n_n_wf : DotDims.WF S8192x64 S64x10 S8192x10 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x10_S8192x10_1_0_0_1_n_n : DotDims S8192x64 S64x10 S8192x10 where
  lhsContracting := [1]
  rhsContracting := [0]
  lhsNonContracting := [0]
  rhsNonContracting := [1]
  lhsBatch := []
  rhsBatch := []
  wf := dot_S8192x64_S64x10_S8192x10_1_0_0_1_n_n_wf

class Facts : Prop extends Facts₀ where

variable [Facts]
-- ==== Proof.R0Runs.lean ====
import proofs.«164609_j68143951118910_1_alg».proof.Proof.Gen.KernelIdeal.Launch
import proofs.«164609_j68143951118910_1_alg».proof.Proof.Gen.KernelIdeal.Skeleton
import proofs.«164609_j68143951118910_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev VO0_1 : View sig .tc .vmem S2048x1 .f32 := (Memref.whole cc0_stg1_0 : Memref sig .tc .vmem S2048x1 .f32).view

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .f32 := win0_1.stage (cfg0.slots t 1)
abbrev hs0_1 (t : Fin cfg0.N) : (ms0_1 t).IsWhole := hstage0_1 ((cfg0.slots t 1).cast nbuf0_1)

-- A whole buffer whose raw contents read back as X is owned at X.
theorem owns_unread {S : Shape} (c : Dev nD) {a : Memref sig .tc .vmem S .f32} (h : a.IsWhole) (X : Vec F S .f32) :
    (a.view.loc (c : Thread nD τ) ↦[a.view.set]{fullShare} h.unread X : sProp 𝕄)
      ⊢ iprop(∃ f, ⌜a.view.read (Elt F) f = X⌝ ∗ (a.view.loc (c : Thread nD τ) ↦[a.view.set]{fullShare} f)) := by
  iintro H; iexists _; isplitr; · ipureintro; exact h.read_unread _
  iexact H

set_option maxHeartbeats 4000000 in
noncomputable def kernelRun0_A (c : Dev nD) (i : grid0.Coords) (arg2 : Memref sig .tc .vmem S2048x1024 .f32) (harg2 : arg2.IsWhole) (arg3 : Memref sig .tc .vmem S2048x1 .f32) (harg3 : arg3.IsWhole) (hc0 : cond0_0 i)
    (x0 : Vec F S2048x1024 .f32) :
    { L1 : List (View.Piece (Elt F) S2048x1 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]; · iapply owns_unread c harg2; iexact H0
    iexists _; iexact H1

set_option maxHeartbeats 4000000 in
noncomputable def kernelRun0_B (c : Dev nD) (i : grid0.Coords) (arg2 : Memref sig .tc .vmem S2048x1024 .f32) (harg2 : arg2.IsWhole) (arg3 : Memref sig .tc .vmem S2048x1 .f32) (harg3 : arg3.IsWhole) (hc0 : ¬cond0_0 i)
    (x0 : Vec F S2048x1024 .f32) (xo1 : Vec F S2048x1 .f32) :
    { L1 : List (View.Piece (Elt F) S2048x1 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0__rowsum_kernel i arg2 harg2 arg3 harg3) K } := by
  refine ⟨?_, fun E K => ?run⟩
  case run =>
    simp only [cc0__rowsum_kernel_eq_skeleton]; unfold cc0__rowsum_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]; · iapply owns_unread c harg2; iexact H0
    iexists _; iexact H1

end Cert.KernelIdeal.Hand

end
-- ==== Proof.R0Dat.lean ====
import proofs.«164609_j68143951118910_1_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem cover0_A_1 (c : Dev nD) (i : grid0.Coords) (arg2 : Memref sig .tc .vmem S2048x1024 .f32) (harg2 : arg2.IsWhole) (arg3 : Memref sig .tc .vmem S2048x1 .f32) (harg3 : arg3.IsWhole) (hc0 : cond0_0 i)
    (x0 : Vec F S2048x1024 .f32) (y : S2048x1.Idx) :
    ∃ pc ∈ (kernelRun0_A c i arg2 harg2 arg3 harg3 hc0 x0).1, y ∈ pc.1.set :=
  View.cover_of_tiledL (kernelRun0_A c i arg2 harg2 arg3 harg3 hc0 x0).1 S2048x1.size (by sl_kernel_rfl) y

def out0_A_1 (c : Dev nD) (i : grid0.Coords) (arg2 : Memref sig .tc .vmem S2048x1024 .f32) (harg2 : arg2.IsWhole) (arg3 : Memref sig .tc .vmem S2048x1 .f32) (harg3 : arg3.IsWhole) (hc0 : cond0_0 i)
    (x0 : Vec F S2048x1024 .f32) : Vec F S2048x1 .f32 :=
  VO0_1.read (Elt F) (VO0_1.writes (Elt F) VO0_1.junk (kernelRun0_A c i arg2 harg2 arg3 harg3 hc0 x0).1)

theorem cover0_B_1 (c : Dev nD) (i : grid0.Coords) (arg2 : Memref sig .tc .vmem S2048x1024 .f32) (harg2 : arg2.IsWhole) (arg3 : Memref sig .tc .vmem S2048x1 .f32) (harg3 : arg3.IsWhole) (hc0 : ¬cond0_0 i)
    (x0 : Vec F S2048x1024 .f32) (xo1 : Vec F S2048x1 .f32) (y : S2048x1.Idx) :
    ∃ pc ∈ (kernelRun0_B c i arg2 harg2 arg3 harg3 hc0 x0 xo1).1, y ∈ pc.1.set :=
  View.cover_of_tiledL (kernelRun0_B c i arg2 harg2 arg3 harg3 hc0 x0 xo1).1 S2048x1.size (by sl_kernel_rfl) y

def out0_B_1 (c : Dev nD) (i : grid0.Coords) (arg2 : Memref sig .tc .vmem S2048x1024 .f32) (harg2 : arg2.IsWhole) (arg3 : Memref sig .tc .vmem S2048x1 .f32) (harg3 : arg3.IsWhole) (hc0 : ¬cond0_0 i)
    (x0 : Vec F S2048x1024 .f32) (xo1 : Vec F S2048x1 .f32) : Vec F S2048x1 .f32 :=
  VO0_1.read (Elt F) (VO0_1.writes (Elt F) VO0_1.junk (kernelRun0_B c i arg2 harg2 arg3 harg3 hc0 x0 xo1).1)

def outsAt0 (c : Dev nD) : (n : ℕ) → n < cfg0.N → Vec F S2048x1 .f32
  | 0, hn => out0_A_1 c (grid0.coords ⟨0, hn⟩) (ms0_0 ⟨0, hn⟩) (hs0_0 ⟨0, hn⟩) (ms0_1 ⟨0, hn⟩) (hs0_1 ⟨0, hn⟩) ((hcond0_0 ⟨0, hn⟩).mpr (Nat.zero_mod _)) (iblk0 V c 0 ⟨0, hn⟩)
  | n + 1, hn =>
    if h0 : (n + 1) % 8 = 0 then
      out0_A_1 c (grid0.coords ⟨n + 1, hn⟩) (ms0_0 ⟨n + 1, hn⟩) (hs0_0 ⟨n + 1, hn⟩) (ms0_1 ⟨n + 1, hn⟩) (hs0_1 ⟨n + 1, hn⟩) ((hcond0_0 ⟨n + 1, hn⟩).mpr h0) (iblk0 V c 0 ⟨n + 1, hn⟩)
    else
      out0_B_1 c (grid0.coords ⟨n + 1, hn⟩) (ms0_0 ⟨n + 1, hn⟩) (hs0_0 ⟨n + 1, hn⟩) (ms0_1 ⟨n + 1, hn⟩) (hs0_1 ⟨n + 1, hn⟩) (fun h => h0 ((hcond0_0 ⟨n + 1, hn⟩).mp h)) (iblk0 V c 0 ⟨n + 1, hn⟩) (outsAt0 c n (Nat.lt_of_succ_lt hn))

theorem outsAt0_A (c : Dev nD) (t : Fin cfg0.N) (h0 : t.val % 8 = 0) :
    outsAt0 V c t.val t.isLt = out0_A_1 c (grid0.coords t) (ms0_0 t) (hs0_0 t) (ms0_1 t) (hs0_1 t) ((hcond0_0 t).mpr h0) (iblk0 V c 0 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = out0_B_1 c (grid0.coords t) (ms0_0 t) (hs0_0 t) (ms0_1 t) (hs0_1 t) (fun h => h0 ((hcond0_0 t).mp h)) (iblk0 V c 0 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

theorem before0_1_B (c : Dev nD) (t : Fin cfg0.N) (h0 : ¬t.val % 8 = 0) (d) :
    (dat0 V c).before 1 t d = (outsAt0 V c (t.val - 1) (Nat.lt_of_le_of_lt (Nat.sub_le _ _) t.isLt)) := by
  have hN : t.val < 32 := lt_of_lt_of_eq t.isLt (show cfg0.N = 32 from N_0)
  rw [Dat.before_out_kept _ 1 rfl t (by omega) (Bool.eq_false_iff.mpr fun h => by have := (flush0_1 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  have hN : t.val < 32 := lt_of_lt_of_eq t.isLt (show cfg0.N = 32 from N_0)
  by_cases h0 : t.val % 8 = 0
  · rw [outsAt0_A V c t h0]
    unfold out0_A_1
    iintro ⟨HΦ, Ho, ⟨%d0, H0⟩, ⟨%d1, H1⟩⟩
    iapply ((kernelRun0_A c (grid0.coords t) _ _ _ _ ((hcond0_0 t).mpr h0) (iblk0 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_A_1 c _ _ _ _ _ _ _)
  · rw [outsAt0_B V c t h0]
    simp only [before0_1_B V c t h0]
    unfold out0_B_1
    iintro ⟨HΦ, Ho, ⟨%d0, H0⟩, ⟨%d1, H1⟩⟩
    iapply ((kernelRun0_B c (grid0.coords t) _ _ _ _ (fun h => h0 ((hcond0_0 t).mp h)) (iblk0 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover0_B_1 c _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.LayerBody.lean ====
import proofs.«164609_j68143951118910_1_alg».proof.Proof.R0Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- One text serves both graph-convolution layers: the second layer's body is the first's but for a cast to the same shape.
abbrev layerBody := cc1__gcn_layer_kernel (F := F)

theorem layer_is1 : cc1__gcn_layer_kernel (F := F) = layerBody (F := F) := rfl

theorem layer_is2 : cc2__gcn_layer_kernel (F := F) = layerBody (F := F) := by
  funext i a2 h2 a3 h3 a4 h4 a5 h5 a6 h6 a7 h7 a8 h8
  unfold layerBody cc2__gcn_layer_kernel cc1__gcn_layer_kernel
  simp only [shapeCast_self]
  rfl

-- The body's two branches: the column-block coordinate is zero; it is the last one.
abbrev condFirst (i : grid1.Coords) : Prop := (Scalar.cmpi .ne (Scalar.extui (Scalar.cmpi .eq (BitVec.ofNat 32 (i 1).val) 0#32)) 0#32) = 1#1
abbrev condLast (i : grid1.Coords) : Prop := k1_cond2 i = 1#1

-- A whole buffer of the accumulator's shape, through which found stores are read back.
abbrev VB : View sig .tc .vmem S2048x64 .f32 := (Memref.whole cc1_scratch0 : Memref sig .tc .vmem S2048x64 .f32).view

theorem offsets_zero : (![0, 0] : Fin 2 → Nat) = fun _ => 0 := funext fun a => by fin_cases a <;> rfl

section Body

-- The grid point, the seven memrefs the body is called with (each a whole buffer), shared by the three cases.
variable (c : Dev nD) (i : grid1.Coords)
  (arg2 : Memref sig .tc .vmem S2048x1024 .f32) (harg2 : arg2.IsWhole) (arg3 : Memref sig .tc .vmem S1024x64 .f32) (harg3 : arg3.IsWhole)
  (arg4 : Memref sig .tc .vmem S64x64 .f32) (harg4 : arg4.IsWhole) (arg5 : Memref sig .tc .vmem S1024x1 .f32) (harg5 : arg5.IsWhole)
  (arg6 : Memref sig .tc .vmem S2048x1 .f32) (harg6 : arg6.IsWhole) (arg7 : Memref sig .tc .vmem S2048x64 .f32) (harg7 : arg7.IsWhole)
  (arg8 : Memref sig .tc .vmem S2048x64 .f32) (harg8 : arg8.IsWhole)

set_option maxHeartbeats 4000000 in
noncomputable def layerRun_A (hc0 : condFirst i) (hc1 : ¬condLast i)
    (x0 : Vec F S2048x1024 .f32) (x1 : Vec F S1024x64 .f32) (x2 : Vec F S64x64 .f32) (x3 : Vec F S1024x1 .f32) (x4 : Vec F S2048x1 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (layerBody i arg2 harg2 arg3 harg3 arg4 harg4 arg5 harg5 arg6 harg6 arg7 harg7 arg8 harg8) K } := by
  refine ⟨[], ?_, fun xi5 E K => ?run⟩
  case run =>
    simp only [layerBody, cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    iexists _; iexact HS0

set_option maxHeartbeats 4000000 in
noncomputable def layerRun_B (hc0 : ¬condFirst i) (hc1 : ¬condLast i)
    (x0 : Vec F S2048x1024 .f32) (x1 : Vec F S1024x64 .f32) (x2 : Vec F S64x64 .f32) (x3 : Vec F S1024x1 .f32) (x4 : Vec F S2048x1 .f32) (xs0 : Vec F S2048x64 .f32) :
    Σ' (L5 : List (View.Piece (Elt F) S2048x64 .f32)), { LS0 : List (View.Piece (Elt F) S2048x64 .f32) //
      ∀ (xi5 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (layerBody i arg2 harg2 arg3 harg3 arg4 harg4 arg5 harg5 arg6 harg6 arg7 harg7 arg8 harg8) K } := by
  refine ⟨[], ?_, fun xi5 E K => ?run⟩
  case run =>
    simp only [layerBody, cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iapply owns_unread c harg7; iexact H5
    iexists _; iexact HS0

set_option maxHeartbeats 4000000 in
noncomputable def layerRun_C (hc0 : ¬condFirst i) (hc1 : condLast i)
    (x0 : Vec F S2048x1024 .f32) (x1 : Vec F S1024x64 .f32) (x2 : Vec F S64x64 .f32) (x3 : Vec F S1024x1 .f32) (x4 : Vec F S2048x1 .f32) (xs0 : Vec F S2048x64 .f32) :
    Σ' (L5 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (layerBody i arg2 harg2 arg3 harg3 arg4 harg4 arg5 harg5 arg6 harg6 arg7 harg7 arg8 harg8) K } := by
  refine ⟨?_, ?_, fun E K => ?run⟩
  case run =>
    simp only [layerBody, cc1__gcn_layer_kernel_eq_skeleton]; unfold cc1__gcn_layer_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]; · iapply owns_unread c harg2; iexact H0
    isplitl [H1]; · iapply owns_unread c harg3; iexact H1
    isplitl [H2]; · iapply owns_unread c harg4; iexact H2
    isplitl [H3]; · iapply owns_unread c harg5; iexact H3
    isplitl [H4]; · iapply owns_unread c harg6; iexact H4
    isplitl [H5]; · iexists _; iexact H5
    iexists _; iexact HS0

-- Each case's stores into the scratch, and case C's store into the output block, tile the buffer they go to.
theorem layerCover_A (hc0 : condFirst i) (hc1 : ¬condLast i) (x0 : Vec F S2048x1024 .f32) (x1 : Vec F S1024x64 .f32) (x2 : Vec F S64x64 .f32) (x3 : Vec F S1024x1 .f32) (x4 : Vec F S2048x1 .f32) (y : S2048x64.Idx) :
    ∃ pc ∈ (layerRun_A c i arg2 harg2 arg3 harg3 arg4 harg4 arg5 harg5 arg6 harg6 arg7 harg7 arg8 harg8 hc0 hc1 x0 x1 x2 x3 x4).2.1, y ∈ pc.1.set :=
  View.cover_of_tiledL (layerRun_A c i arg2 harg2 arg3 harg3 arg4 harg4 arg5 harg5 arg6 harg6 arg7 harg7 arg8 harg8 hc0 hc1 x0 x1 x2 x3 x4).2.1 S2048x64.size (by sl_kernel_rfl) y

theorem layerCover_B (hc0 : ¬condFirst i) (hc1 : ¬condLast i) (x0 : Vec F S2048x1024 .f32) (x1 : Vec F S1024x64 .f32) (x2 : Vec F S64x64 .f32) (x3 : Vec F S1024x1 .f32) (x4 : Vec F S2048x1 .f32) (xs0 : Vec F S2048x64 .f32) (y : S2048x64.Idx) :
    ∃ pc ∈ (layerRun_B c i arg2 harg2 arg3 harg3 arg4 harg4 arg5 harg5 arg6 harg6 arg7 harg7 arg8 harg8 hc0 hc1 x0 x1 x2 x3 x4 xs0).2.1, y ∈ pc.1.set :=
  View.cover_of_tiledL (layerRun_B c i arg2 harg2 arg3 harg3 arg4 harg4 arg5 harg5 arg6 harg6 arg7 harg7 arg8 harg8 hc0 hc1 x0 x1 x2 x3 x4 xs0).2.1 S2048x64.size (by sl_kernel_rfl) y

theorem layerCoverOut_C (hc0 : ¬condFirst i) (hc1 : condLast i) (x0 : Vec F S2048x1024 .f32) (x1 : Vec F S1024x64 .f32) (x2 : Vec F S64x64 .f32) (x3 : Vec F S1024x1 .f32) (x4 : Vec F S2048x1 .f32) (xs0 : Vec F S2048x64 .f32) (y : S2048x64.Idx) :
    ∃ pc ∈ (layerRun_C c i arg2 harg2 arg3 harg3 arg4 harg4 arg5 harg5 arg6 harg6 arg7 harg7 arg8 harg8 hc0 hc1 x0 x1 x2 x3 x4 xs0).1, y ∈ pc.1.set :=
  View.cover_of_tiledL (layerRun_C c i arg2 harg2 arg3 harg3 arg4 harg4 arg5 harg5 arg6 harg6 arg7 harg7 arg8 harg8 hc0 hc1 x0 x1 x2 x3 x4 xs0).1 S2048x64.size (by sl_kernel_rfl) y

theorem layerCover_C (hc0 : ¬condFirst i) (hc1 : condLast i) (x0 : Vec F S2048x1024 .f32) (x1 : Vec F S1024x64 .f32) (x2 : Vec F S64x64 .f32) (x3 : Vec F S1024x1 .f32) (x4 : Vec F S2048x1 .f32) (xs0 : Vec F S2048x64 .f32) (y : S2048x64.Idx) :
    ∃ pc ∈ (layerRun_C c i arg2 harg2 arg3 harg3 arg4 harg4 arg5 harg5 arg6 harg6 arg7 harg7 arg8 harg8 hc0 hc1 x0 x1 x2 x3 x4 xs0).2.1, y ∈ pc.1.set :=
  View.cover_of_tiledL (layerRun_C c i arg2 harg2 arg3 harg3 arg4 harg4 arg5 harg5 arg6 harg6 arg7 harg7 arg8 harg8 hc0 hc1 x0 x1 x2 x3 x4 xs0).2.1 S2048x64.size (by sl_kernel_rfl) y

-- The first column block leaves in the scratch one accumulation step over the zero block: the step's load reads the reset store back.
theorem layerAcc_A (hc0 : condFirst i) (hc1 : ¬condLast i) (x0 : Vec F S2048x1024 .f32) (x1 : Vec F S1024x64 .f32) (x2 : Vec F S64x64 .f32) (x3 : Vec F S1024x1 .f32) (x4 : Vec F S2048x1 .f32) :
    VB.read (Elt F) (VB.writes (Elt F) VB.junk (layerRun_A c i arg2 harg2 arg3 harg3 arg4 harg4 arg5 harg5 arg6 harg6 arg7 harg7 arg8 harg8 hc0 hc1 x0 x1 x2 x3 x4).2.1) = k1_pay2 x1 x2 x3 x0 (k1_pay1 (F := F)) := by
  rw [View.read_writes_eq_canon _ _ _ (layerCover_A c i arg2 harg2 arg3 harg3 arg4 harg4 arg5 harg5 arg6 harg6 arg7 harg7 arg8 harg8 hc0 hc1 x0 x1 x2 x3 x4)]
  unfold layerRun_A
  dsimp only
  sl_unfold_words
  rw [View.canon_cons_unit_zero (S := S2048x64) offsets_zero]
  simp only [View.readAt_eq_ld, harg2.read_unread, harg3.read_unread, harg4.read_unread, harg5.read_unread, harg6.read_unread, harg8.read_unread, View.ld_unit_zero (S := S2048x1024) offsets_zero, View.ld_unit_zero (S := S1024x64) offsets_zero, View.ld_unit_zero (S := S64x64) offsets_zero, View.ld_unit_zero (S := S1024x1) offsets_zero, View.ld_unit_zero (S := S2048x1) offsets_zero, View.ld_unit_zero (S := S2048x64) offsets_zero, View.readCov_unit_zero (S := S2048x64) _ offsets_zero]

-- A later column block leaves one accumulation step over what the scratch held,
theorem layerAcc_B (hc0 : ¬condFirst i) (hc1 : ¬condLast i) (x0 : Vec F S2048x1024 .f32) (x1 : Vec F S1024x64 .f32) (x2 : Vec F S64x64 .f32) (x3 : Vec F S1024x1 .f32) (x4 : Vec F S2048x1 .f32) (xs0 : Vec F S2048x64 .f32) :
    VB.read (Elt F) (VB.writes (Elt F) VB.junk (layerRun_B c i arg2 harg2 arg3 harg3 arg4 harg4 arg5 harg5 arg6 harg6 arg7 harg7 arg8 harg8 hc0 hc1 x0 x1 x2 x3 x4 xs0).2.1) = k1_pay2 x1 x2 x3 x0 xs0 := by
  rw [View.read_writes_eq_canon _ _ _ (layerCover_B c i arg2 harg2 arg3 harg3 arg4 harg4 arg5 harg5 arg6 harg6 arg7 harg7 arg8 harg8 hc0 hc1 x0 x1 x2 x3 x4 xs0)]
  unfold layerRun_B
  dsimp only
  sl_unfold_words
  rw [View.canon_unit_zero offsets_zero]
  simp only [View.readAt_eq_ld, harg2.read_unread, harg3.read_unread, harg4.read_unread, harg5.read_unread, harg6.read_unread, harg8.read_unread, View.ld_unit_zero (S := S2048x1024) offsets_zero, View.ld_unit_zero (S := S1024x64) offsets_zero, View.ld_unit_zero (S := S64x64) offsets_zero, View.ld_unit_zero (S := S1024x1) offsets_zero, View.ld_unit_zero (S := S2048x1) offsets_zero, View.ld_unit_zero (S := S2048x64) offsets_zero]

theorem layerAcc_C (hc0 : ¬condFirst i) (hc1 : condLast i) (x0 : Vec F S2048x1024 .f32) (x1 : Vec F S1024x64 .f32) (x2 : Vec F S64x64 .f32) (x3 : Vec F S1024x1 .f32) (x4 : Vec F S2048x1 .f32) (xs0 : Vec F S2048x64 .f32) :
    VB.read (Elt F) (VB.writes (Elt F) VB.junk (layerRun_C c i arg2 harg2 arg3 harg3 arg4 harg4 arg5 harg5 arg6 harg6 arg7 harg7 arg8 harg8 hc0 hc1 x0 x1 x2 x3 x4 xs0).2.1) = k1_pay2 x1 x2 x3 x0 xs0 := by
  rw [View.read_writes_eq_canon _ _ _ (layerCover_C c i arg2 harg2 arg3 harg3 arg4 harg4 arg5 harg5 arg6 harg6 arg7 harg7 arg8 harg8 hc0 hc1 x0 x1 x2 x3 x4 xs0)]
  unfold layerRun_C
  dsimp only
  sl_unfold_words
  rw [View.canon_unit_zero offsets_zero]
  simp only [View.readAt_eq_ld, harg2.read_unread, harg3.read_unread, harg4.read_unread, harg5.read_unread, harg6.read_unread, harg8.read_unread, View.ld_unit_zero (S := S2048x1024) offsets_zero, View.ld_unit_zero (S := S1024x64) offsets_zero, View.ld_unit_zero (S := S64x64) offsets_zero, View.ld_unit_zero (S := S1024x1) offsets_zero, View.ld_unit_zero (S := S2048x1) offsets_zero, View.ld_unit_zero (S := S2048x64) offsets_zero]

-- and the last one stores that accumulator, scaled by the rows' degree factors and rectified, into the output block.
theorem layerOut_C (hc0 : ¬condFirst i) (hc1 : condLast i) (x0 : Vec F S2048x1024 .f32) (x1 : Vec F S1024x64 .f32) (x2 : Vec F S64x64 .f32) (x3 : Vec F S1024x1 .f32) (x4 : Vec F S2048x1 .f32) (xs0 : Vec F S2048x64 .f32) :
    VB.read (Elt F) (VB.writes (Elt F) VB.junk (layerRun_C c i arg2 harg2 arg3 harg3 arg4 harg4 arg5 harg5 arg6 harg6 arg7 harg7 arg8 harg8 hc0 hc1 x0 x1 x2 x3 x4 xs0).1) = k1_pay3 x4 (k1_pay2 x1 x2 x3 x0 xs0) := by
  rw [View.read_writes_eq_canon _ _ _ (layerCoverOut_C c i arg2 harg2 arg3 harg3 arg4 harg4 arg5 harg5 arg6 harg6 arg7 harg7 arg8 harg8 hc0 hc1 x0 x1 x2 x3 x4 xs0)]
  unfold layerRun_C
  dsimp only
  sl_unfold_words
  rw [View.canon_unit_zero offsets_zero]
  simp only [View.readAt_eq_ld, harg2.read_unread, harg3.read_unread, harg4.read_unread, harg5.read_unread, harg6.read_unread, harg8.read_unread, View.ld_unit_zero (S := S2048x1024) offsets_zero, View.ld_unit_zero (S := S1024x64) offsets_zero, View.ld_unit_zero (S := S64x64) offsets_zero, View.ld_unit_zero (S := S1024x1) offsets_zero, View.ld_unit_zero (S := S2048x1) offsets_zero, View.ld_unit_zero (S := S2048x64) offsets_zero, View.readCov_unit_zero (S := S2048x64) _ offsets_zero]

end Body

-- What a run's stores leave in the output block's buffer and in the scratch: each list read back whole.
def layerLeaves {P : List (View.Piece (Elt F) S2048x64 .f32) → List (View.Piece (Elt F) S2048x64 .f32) → Prop}
    (r : Σ' L5, { LS0 // P L5 LS0 }) : Vec F S2048x64 .f32 × Vec F S2048x64 .f32 :=
  (VB.read (Elt F) (VB.writes (Elt F) VB.junk r.1), VB.read (Elt F) (VB.writes (Elt F) VB.junk r.2.1))

end Cert.KernelIdeal.Hand

end
-- ==== Proof.R1Runs.lean ====
import proofs.«164609_j68143951118910_1_alg».proof.Proof.LayerBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def q1 : Fin 6 → PosShare TreeShare := fun w => if w = 3 then fullShare.left else if w = 4 then fullShare.right else fullShare

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x64 .f32 := win1_5.stage (cfg1.slots t 5)
abbrev hs1_5 (t : Fin cfg1.N) : (ms1_5 t).IsWhole := hstage1_5 ((cfg1.slots t 5).cast nbuf1_5)

abbrev scM1_0 : Memref sig .tc .vmem S2048x64 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ rest1 c) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.R1Dat.lean ====
import proofs.«164609_j68143951118910_1_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The three cases' runs at grid point t: on the memrefs the body is called with there, the input blocks read off V, the scratch at xs.
abbrev runA1 (c : Dev nD) (t : Fin cfg1.N) (h0 : t.val % 8 = 0) (h1 : ¬t.val % 8 = 7) :=
  layerRun_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
abbrev runB1 (c : Dev nD) (t : Fin cfg1.N) (h0 : ¬t.val % 8 = 0) (h1 : ¬t.val % 8 = 7) (xs : Vec F S2048x64 .f32) :=
  layerRun_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) xs
abbrev runC1 (c : Dev nD) (t : Fin cfg1.N) (h0 : ¬t.val % 8 = 0) (h1 : t.val % 8 = 7) (xs : Vec F S2048x64 .f32) :=
  layerRun_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) xs

-- After point n: the first column block starts the scratch afresh, the later ones go on from what point n - 1 left.
def outsAt1 (c : Dev nD) : (n : ℕ) → n < cfg1.N → Vec F S2048x64 .f32 × Vec F S2048x64 .f32
  | 0, hn => layerLeaves (runA1 V c ⟨0, hn⟩ (Nat.zero_mod _) (fun h => by (try dsimp only at h); omega))
  | n + 1, hn =>
    if h0 : (n + 1) % 8 = 0 then layerLeaves (runA1 V c ⟨n + 1, hn⟩ h0 (fun h => by (try dsimp only at h); omega))
    else if h1 : (n + 1) % 8 = 7 then layerLeaves (runC1 V c ⟨n + 1, hn⟩ h0 h1 (outsAt1 c n (Nat.lt_of_succ_lt hn)).2)
    else layerLeaves (runB1 V c ⟨n + 1, hn⟩ h0 h1 (outsAt1 c n (Nat.lt_of_succ_lt hn)).2)

theorem outsAt1_A (c : Dev nD) (t : Fin cfg1.N) (h0 : t.val % 8 = 0) (h1 : ¬t.val % 8 = 7) :
    outsAt1 V c t.val t.isLt = layerLeaves (runA1 V c t h0 h1) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = layerLeaves (runB1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 8 = 0) (h1 : t.val % 8 = 7) :
    outsAt1 V c t.val t.isLt = layerLeaves (runC1 V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 c) ∗ (∃ r, prngReg c r)) := by
  cases n with
  | zero => exact absurd rfl hz
  | succ n => rfl

-- At every position the invariant holds the scratch at some contents: all the body's first case asks of it.
theorem PhiS1_weak (c : Dev nD) (n : ℕ) (h : n ≤ cfg1.N) :
    PhiS1 V c n h ⊢ iprop(iprop((∃ d, owns (c : Thread nD τ) scM1_0 fullShare d) ∗ rest1 c) ∗ (∃ r, prngReg c r)) := by
  cases n with
  | zero => rw [PhiS1_zero V c 0 h rfl, PhiA1_eq]
  | succ n =>
    rw [PhiS1_succ]
    iintro ⟨⟨HS0, Hrest⟩, Hg⟩
    isplitl [HS0 Hrest]
    · isplitl [HS0]
      · iexists _; iexact HS0
      iexact Hrest
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
-- The body at any point: the invariant lends the scratch, the point's case is run, and the scratch goes back at what the case left.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [layer_is1]
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold layerLeaves; (try dsimp only)
    rw [PhiS1_castSucc V c t]
    refine (sep_mono (PhiS1_weak V c _ _) .rfl).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((runA1 V c t h0 h1).2.2 _ Set.univ _)
    iframe H0 H1 H2 H3 H4 H5 HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (layerCover_A c _ _ _ _ _ _ _ _ _ _ _ _ _ _ _ _ _ _ _ _ _ _)
    iexists _; iexact H5
  · have hz : t.val ≠ 0 := by omega
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold layerLeaves; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runC1 V c t h0 h1 _).2.2 Set.univ _)
      iframe H0 H1 H2 H3 H4 HS0
      isplitl [H5]; · iexists _; iexact H5
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (layerCover_C c _ _ _ _ _ _ _ _ _ _ _ _ _ _ _ _ _ _ _ _ _ _ _)
      unfold owns; iexists _; isplitr
      swap; · iexact H5
      ipureintro; exact View.read_writes_of_cover _ _ _ _ _ (layerCoverOut_C c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold layerLeaves; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runB1 V c t h0 h1 _).2.2 _ Set.univ _)
      iframe H0 H1 H2 H3 H4 H5 HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (layerCover_B c _ _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

-- After the last point the scratch's named contents are forgotten: the region's own is given back.
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_weak V c _ _

end Cert.KernelIdeal.Hand

end
-- ==== Proof.R2Runs.lean ====
import proofs.«164609_j68143951118910_1_alg».proof.Proof.LayerBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

def q2 : Fin 6 → PosShare TreeShare := fun w => if w = 3 then fullShare.left else if w = 4 then fullShare.right else fullShare

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 :=
  (by decide +kernel : ∀ t : Fin grid2.N, cond2_0 (grid2.coords t) ↔ t.val % 8 = 0)

abbrev cond2_1 (i : grid2.Coords) : Prop := k2_cond2 i = 1#1

theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

theorem idleAt2_5_A : ∀ t : Fin cfg2.N, cond2_0 (grid2.coords t) → ¬cond2_1 (grid2.coords t) → cfg2.idle 5 (grid2.coords t) = true := by decide +kernel

theorem noFlush2_5_A : ∀ t : Fin cfg2.N, cond2_0 (grid2.coords t) → ¬cond2_1 (grid2.coords t) → (cfg2.win 5).flush t = false := by decide +kernel

theorem idleAt2_5_B : ∀ t : Fin cfg2.N, ¬cond2_0 (grid2.coords t) → ¬cond2_1 (grid2.coords t) → cfg2.idle 5 (grid2.coords t) = true := by decide +kernel

theorem noFlush2_5_B : ∀ t : Fin cfg2.N, ¬cond2_0 (grid2.coords t) → ¬cond2_1 (grid2.coords t) → (cfg2.win 5).flush t = false := by decide +kernel

theorem liveAt2_5_C : ∀ t : Fin cfg2.N, ¬cond2_0 (grid2.coords t) → cond2_1 (grid2.coords t) → cfg2.idle 5 (grid2.coords t) = false := by decide +kernel

abbrev ms2_0 (t : Fin cfg2.N) : Memref sig .tc .vmem S2048x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x64 .f32 := win2_5.stage (cfg2.slots t 5)
abbrev hs2_5 (t : Fin cfg2.N) : (ms2_5 t).IsWhole := hstage2_5 ((cfg2.slots t 5).cast nbuf2_5)

abbrev scM2_0 : Memref sig .tc .vmem S2048x64 .f32 := Memref.whole cc2_scratch0

abbrev rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA
  rw [Pipeline.scopedRest_split_of_list spec2 c [cc2_scratch0] (by decide) (by decide)]
  simp only [scM2_0, owns_whole]; try rfl

end Cert.KernelIdeal.Hand

end
-- ==== Proof.R2Dat.lean ====
import proofs.«164609_j68143951118910_1_alg».proof.Proof.R2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

-- The three cases' runs at grid point t: on the memrefs the body is called with there, the input blocks read off V, the scratch at xs.
abbrev runA2 (c : Dev nD) (t : Fin cfg2.N) (h0 : t.val % 8 = 0) (h1 : ¬t.val % 8 = 7) :=
  layerRun_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)
abbrev runB2 (c : Dev nD) (t : Fin cfg2.N) (h0 : ¬t.val % 8 = 0) (h1 : ¬t.val % 8 = 7) (xs : Vec F S2048x64 .f32) :=
  layerRun_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs
abbrev runC2 (c : Dev nD) (t : Fin cfg2.N) (h0 : ¬t.val % 8 = 0) (h1 : t.val % 8 = 7) (xs : Vec F S2048x64 .f32) :=
  layerRun_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) xs

-- After point n: the first column block starts the scratch afresh, the later ones go on from what point n - 1 left.
def outsAt2 (c : Dev nD) : (n : ℕ) → n < cfg2.N → Vec F S2048x64 .f32 × Vec F S2048x64 .f32
  | 0, hn => layerLeaves (runA2 V c ⟨0, hn⟩ (Nat.zero_mod _) (fun h => by (try dsimp only at h); omega))
  | n + 1, hn =>
    if h0 : (n + 1) % 8 = 0 then layerLeaves (runA2 V c ⟨n + 1, hn⟩ h0 (fun h => by (try dsimp only at h); omega))
    else if h1 : (n + 1) % 8 = 7 then layerLeaves (runC2 V c ⟨n + 1, hn⟩ h0 h1 (outsAt2 c n (Nat.lt_of_succ_lt hn)).2)
    else layerLeaves (runB2 V c ⟨n + 1, hn⟩ h0 h1 (outsAt2 c n (Nat.lt_of_succ_lt hn)).2)

theorem outsAt2_A (c : Dev nD) (t : Fin cfg2.N) (h0 : t.val % 8 = 0) (h1 : ¬t.val % 8 = 7) :
    outsAt2 V c t.val t.isLt = layerLeaves (runA2 V c t h0 h1) := by
  obtain ⟨n, hn⟩ := t
  cases n with
  | zero => exact rfl
  | succ n => exact (dif_pos h0).trans rfl

theorem outsAt2_B (c : Dev nD) (t : Fin cfg2.N) (h0 : ¬t.val % 8 = 0) (h1 : ¬t.val % 8 = 7) :
    outsAt2 V c t.val t.isLt = layerLeaves (runB2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 8 = 0) (h1 : t.val % 8 = 7) :
    outsAt2 V c t.val t.isLt = layerLeaves (runC2 V c t h0 h1 (outsAt2 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 c) ∗ (∃ r, prngReg c r)) := by
  cases n with
  | zero => exact absurd rfl hz
  | succ n => rfl

-- At every position the invariant holds the scratch at some contents: all the body's first case asks of it.
theorem PhiS2_weak (c : Dev nD) (n : ℕ) (h : n ≤ cfg2.N) :
    PhiS2 V c n h ⊢ iprop(iprop((∃ d, owns (c : Thread nD τ) scM2_0 fullShare d) ∗ rest2 c) ∗ (∃ r, prngReg c r)) := by
  cases n with
  | zero => rw [PhiS2_zero V c 0 h rfl, PhiA2_eq]
  | succ n =>
    rw [PhiS2_succ]
    iintro ⟨⟨HS0, Hrest⟩, Hg⟩
    isplitl [HS0 Hrest]
    · isplitl [HS0]
      · iexists _; iexact HS0
      iexact Hrest
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q := q2
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
-- The body at any point: the invariant lends the scratch, the point's case is run, and the scratch goes back at what the case left.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [layer_is2]
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · have h1 : ¬t.val % 8 = 7 := by omega
    rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
    rw [outsAt2_A V c t h0 h1]
    unfold layerLeaves; (try dsimp only)
    rw [PhiS2_castSucc V c t]
    refine (sep_mono (PhiS2_weak V c _ _) .rfl).trans ?_
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((runA2 V c t h0 h1).2.2 _ Set.univ _)
    iframe H0 H1 H2 H3 H4 H5 HS0
    iintro ⟨H0, H1, H2, H3, H4, H5, ⟨%es0, HS0⟩⟩
    iframe Hrest Hg Ho H0 H1 H2 H3 H4
    isplitl [HS0]
    · unfold owns; iexists _; isplitr
      swap; · iexact HS0
      ipureintro; exact View.read_writes_of_cover _ _ _ _ _ (layerCover_A c _ _ _ _ _ _ _ _ _ _ _ _ _ _ _ _ _ _ _ _ _ _)
    iexists _; iexact H5
  · have hz : t.val ≠ 0 := by omega
    by_cases h1 : t.val % 8 = 7
    · rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold layerLeaves; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runC2 V c t h0 h1 _).2.2 Set.univ _)
      iframe H0 H1 H2 H3 H4 HS0
      isplitl [H5]; · iexists _; iexact H5
      iintro ⟨H0, H1, H2, H3, H4, ⟨%e5, H5⟩, ⟨%es0, HS0⟩⟩
      iframe Hrest Hg Ho H0 H1 H2 H3 H4
      isplitl [HS0]
      · unfold owns; iexists _; isplitr
        swap; · iexact HS0
        ipureintro; exact View.read_writes_of_cover _ _ _ _ _ (layerCover_C c _ _ _ _ _ _ _ _ _ _ _ _ _ _ _ _ _ _ _ _ _ _ _)
      unfold owns; iexists _; isplitr
      swap; · iexact H5
      ipureintro; exact View.read_writes_of_cover _ _ _ _ _ (layerCoverOut_C c _ _ _ _ _ _ _ _ _ _ _ _ _ _ _ _ _ _ _ _ _ _ _)
    · rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold layerLeaves; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((runB2 V c t h0 h1 _).2.2 _ Set.univ _)
      iframe H0 H1 H2 H3 H4 H5 HS0
      iintro ⟨H0, H1, H2, H3, H4, H5, ⟨%es0, HS0⟩⟩
      iframe Hrest Hg Ho H0 H1 H2 H3 H4
      isplitl [HS0]
      · unfold owns; iexists _; isplitr
        swap; · iexact HS0
        ipureintro; exact View.read_writes_of_cover _ _ _ _ _ (layerCover_B c _ _ _ _ _ _ _ _ _ _ _ _ _ _ _ _ _ _ _ _ _ _ _)
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

-- After the last point the scratch's named contents are forgotten: the region's own is given back.
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_weak V c _ _

end Cert.KernelIdeal.Hand

end
-- ==== Proof.Outs.lean ====
import proofs.«164609_j68143951118910_1_alg».proof.Proof.R0Dat
import proofs.«164609_j68143951118910_1_alg».proof.Proof.R1Dat
import proofs.«164609_j68143951118910_1_alg».proof.Proof.R2Dat
import proofs.«164609_j68143951118910_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev Lz : GSem nD τ sig → Finset Unit := fun _ => ∅
abbrev lvz : GSem nD τ sig → Unit → ℕ := fun _ _ => 0

abbrev Rr (c : Dev nD) : sProp 𝕄 := iprop((∃ r, prngReg c r) ∗ ∃ W, owes (c : Thread nD τ) (0 : CellTallies nD τ sig Unit) W)
abbrev Ee : Fin 4 → Dev nD → sProp 𝕄 := fun _ c => Rr (F := F) c

abbrev Vr0 : (c : Dev nD) → (b : Ref sig .tc) → Buf (Elt F) ((c : Thread nD τ).loc b) := fun c b => V0 m c b

def o1 (c : Dev nD) : Buf (Elt F) ((c : Thread nD τ).loc main_v0) := (dat0 (Vr0 m) c).arrAt 1 cfg0.N

abbrev base (c : Dev nD) : (r : Ref sig .tc) → Buf (Elt F) ((c : Thread nD τ).loc r) := fun r => m ((c : Thread nD τ).loc r)

def outs1 : Outs (F := F) := fun _ r c => Function.update (base m c) main_v0 (o1 m c) r

theorem outs1_v0 (J : ℕ) (c : Dev nD) : outs1 m J main_v0 c = o1 m c := by
  unfold outs1; exact Function.update_self ..

abbrev Vr5 : (c : Dev nD) → (b : Ref sig .tc) → Buf (Elt F) ((c : Thread nD τ).loc b) := fun c b => V5 m (outs1 m) c b

def o6 (c : Dev nD) : Buf (Elt F) ((c : Thread nD τ).loc main_v8) := (dat1 (Vr5 m) c).arrAt 5 cfg1.N

def outs6 : Outs (F := F) := fun _ r c => Function.update (Function.update (base m c) main_v0 (o1 m c)) main_v8 (o6 m c) r

theorem outs6_v0 (J : ℕ) (c : Dev nD) : outs6 m J main_v0 c = o1 m c := by
  unfold outs6; rw [Function.update_of_ne (by decide)]; exact Function.update_self ..
theorem outs6_v8 (J : ℕ) (c : Dev nD) : outs6 m J main_v8 c = o6 m c := by
  unfold outs6; exact Function.update_self ..

abbrev Vr6 : (c : Dev nD) → (b : Ref sig .tc) → Buf (Elt F) ((c : Thread nD τ).loc b) := fun c b => V6 m (outs6 m) c b

def o7 (c : Dev nD) : Buf (Elt F) ((c : Thread nD τ).loc main_v9) := (dat2 (Vr6 m) c).arrAt 5 cfg2.N

def outs : Outs (F := F) := fun _ r c =>
  Function.update (Function.update (Function.update (base m c) main_v0 (o1 m c)) main_v8 (o6 m c)) main_v9 (o7 m c) r

theorem outs_v0 (J : ℕ) (c : Dev nD) : outs m J main_v0 c = o1 m c := by
  unfold outs; rw [Function.update_of_ne (by decide), Function.update_of_ne (by decide)]; exact Function.update_self ..
theorem outs_v8 (J : ℕ) (c : Dev nD) : outs m J main_v8 c = o6 m c := by
  unfold outs; rw [Function.update_of_ne (by decide)]; exact Function.update_self ..
theorem outs_v9 (J : ℕ) (c : Dev nD) : outs m J main_v9 c = o7 m c := by
  unfold outs; exact Function.update_self ..

theorem V1_congr (o o' : Outs (F := F)) (c : Dev nD) (h : o 1 main_v0 c = o' 1 main_v0 c) : V1 m o c = V1 m o' c := by
  show Function.update (V0 m c) (Proc.tc.devRef main_v0) (o 1 main_v0 c) = Function.update (V0 m c) (Proc.tc.devRef main_v0) (o' 1 main_v0 c)
  rw [h]

theorem V5_congr (o o' : Outs (F := F)) (c : Dev nD) (h : o 1 main_v0 c = o' 1 main_v0 c) : V5 m o c = V5 m o' c := by
  show StableHlo.after hostOps1_3 (StableHlo.after hostOps1_2 (StableHlo.after hostOps1_1 (StableHlo.after hostOps1 (V1 m o c))))
    = StableHlo.after hostOps1_3 (StableHlo.after hostOps1_2 (StableHlo.after hostOps1_1 (StableHlo.after hostOps1 (V1 m o' c))))
  rw [V1_congr m o o' c h]

theorem V6_congr (o o' : Outs (F := F)) (c : Dev nD) (h : o 1 main_v0 c = o' 1 main_v0 c) (h' : o 6 main_v8 c = o' 6 main_v8 c) :
    V6 m o c = V6 m o' c := by
  show Function.update (V5 m o c) (Proc.tc.devRef main_v8) (o 6 main_v8 c) = Function.update (V5 m o' c) (Proc.tc.devRef main_v8) (o' 6 main_v8 c)
  rw [V5_congr m o o' c h, h']

theorem V5_outs (c : Dev nD) : V5 m (outs m) c = V5 m (outs1 m) c :=
  V5_congr m _ _ c ((outs_v0 m 1 c).trans (outs1_v0 m 1 c).symm)

theorem V6_outs (c : Dev nD) : V6 m (outs m) c = V6 m (outs6 m) c :=
  V6_congr m _ _ c ((outs_v0 m 1 c).trans (outs6_v0 m 1 c).symm) ((outs_v8 m 6 c).trans (outs6_v8 m 6 c).symm)
theorem V5_outs6 (c : Dev nD) : V5 m (outs6 m) c = V5 m (outs1 m) c :=
  V5_congr m _ _ c ((outs6_v0 m 1 c).trans (outs1_v0 m 1 c).symm)

def pdats : (p : Fin 3) → (c : Dev nD) → Dat τ (Elt F) Unit ℕ (UR sig nD τ) ℕ (cfgs p) c
  | ⟨0, _⟩ => fun c => dat0 (Vr0 m) c
  | ⟨1, _⟩ => fun c => dat1 (Vr5 m) c
  | ⟨2, _⟩ => fun c => dat2 (Vr6 m) c

end Cert.KernelIdeal.Hand

end
-- ==== Proof.Reg0.lean ====
import proofs.«164609_j68143951118910_1_alg».proof.Proof.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF0 (c : Dev nD) (w : Fin cfg0.W) :
    (dat0 (Vr0 m) c).arrAt w cfg0.N = (fun b => V1 m (outs m) c b) (Pipeline.arrRef spec0 w) := by
  match w with
  | ⟨0, _⟩ => exact ((dat0 (Vr0 m) c).arrAt_in 0 rfl _).trans ((A_eq0 (Vr0 m) c 0).trans (V1_of m (outs m) c main_arg0 (by decide)).symm)
  | ⟨1, _⟩ => exact (show (dat0 (Vr0 m) c).arrAt 1 cfg0.N = o1 m c from rfl).trans ((outs_v0 m 1 c).symm.trans (by
      show outs m 1 main_v0 c = Function.update (V0 m c) (Proc.tc.devRef main_v0) (outs m 1 main_v0 c) (Proc.tc.devRef main_v0)
      rw [Function.update_self]))

theorem hrest0 (c : Dev nD) : ∀ b, b ∉ Finset.univ.image (Pipeline.arrRef spec0) → (fun b => V1 m (outs m) c b) b = Vr0 m c b :=
  fun b hb => V1_of m (outs m) c b (fun h => hb (Finset.mem_image.mpr ⟨1, Finset.mem_univ _, (List.mem_singleton.mp h).symm⟩))

set_option backward.isDefEq.respectTransparency.types false in

def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ Lz lvz 0 fun _ _ => rfl
  pre c := iprop(StableHlo.held (c : Thread nD τ) (Pipeline.ucRefs τ sig) (V0 m c) ∗ Ee 0 c)
  post c := iprop(StableHlo.held (c : Thread nD τ) (Pipeline.ucRefs τ sig) (V1 m (outs m) c) ∗ Ee 1 c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
import proofs.«164609_j68143951118910_1_alg».proof.Proof.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img1 : (Finset.univ.image (Pipeline.arrRef spec1)) = ({main_arg0, main_arg1, main_arg2, main_v7, main_v8} : Finset (Ref sig .tc)) := by decide

section
variable (c : Dev nD) (dat : Dat τ (Elt F) Unit ℕ (UR sig nD τ) ℕ cfg1 c) (hq : dat.q = q1)
include hq
theorem sh1_0 : dat.share 0 = fullShare := by unfold Dat.share; rw [hq]; rfl
theorem sh1_1 : dat.share 1 = fullShare := by unfold Dat.share; rw [hq]; rfl
theorem sh1_2 : dat.share 2 = fullShare := by unfold Dat.share; rw [hq]; rfl
theorem sh1_3 : dat.share 3 = fullShare.left := by unfold Dat.share; rw [hq]; rfl
theorem sh1_4 : dat.share 4 = fullShare.right := by unfold Dat.share; rw [hq]; rfl
omit hq in
theorem sh1_5 : dat.share 5 = fullShare := by unfold Dat.share; rfl
end

theorem whole1 (c : Dev nD) (w : Fin cfg1.W) (q : PosShare TreeShare) (f : Buf (Elt F) ((cfg1.win w).arr.view.loc (c : Thread nD τ))) :
    ((cfg1.win w).arr.view.loc (c : Thread nD τ) ↦[(cfg1.win w).arr.view.set]{q} f : sProp 𝕄)
      = ((cfg1.win w).arr.view.loc (c : Thread nD τ) ↦{q} f) := by
  rw [(arr_whole1 w).set_eq_univ]

set_option maxHeartbeats 4000000 in

theorem arrays_of_arrBufs1 (c : Dev nD) (dat : Dat τ (Elt F) Unit ℕ (UR sig nD τ) ℕ cfg1 c) (hq : dat.q = q1)
    (Vx : (b : Ref sig .tc) → Buf (Elt F) ((c : Thread nD τ).loc b))
    (Fa : (w : Fin cfg1.W) → Buf (Elt F) ((cfg1.win w).arr.view.loc (c : Thread nD τ))) (hF : ∀ w, Fa w = Vx (Pipeline.arrRef spec1 w)) :
    (Pipeline.arrBufs (Ix := Unit) (Name := ℕ) (U := UR sig nD τ) (Lvl := ℕ) spec1 c Vx : sProp 𝕄) ⊢ dat.arrays Fa := by
  unfold Pipeline.arrBufs Dat.arrays
  rw [img1, bigSep_W1, bigSep_insert (by decide), bigSep_insert (by decide), bigSep_insert (by decide), bigSep_insert (by decide), bigSep_singleton]
  rw [whole1 c 0, whole1 c 1, whole1 c 2, whole1 c 3, whole1 c 4, whole1 c 5]
  rw [hF 0, hF 1, hF 2, hF 3, hF 4, hF 5, sh1_0 c dat hq, sh1_1 c dat hq, sh1_2 c dat hq, sh1_3 c dat hq, sh1_4 c dat hq, sh1_5 c dat]
  exact sep_mono .rfl (sep_mono .rfl (sep_mono .rfl
    ((sep_mono (pointsTo_share (PosShare.mem_left_op_right fullShare)).1 .rfl).trans Idealize.SL.BI.sep_assoc)))

set_option maxHeartbeats 4000000 in

theorem arrBufs_of_arrays1 (c : Dev nD) (dat : Dat τ (Elt F) Unit ℕ (UR sig nD τ) ℕ cfg1 c) (hq : dat.q = q1)
    (Vx : (b : Ref sig .tc) → Buf (Elt F) ((c : Thread nD τ).loc b))
    (Fa : (w : Fin cfg1.W) → Buf (Elt F) ((cfg1.win w).arr.view.loc (c : Thread nD τ))) (hF : ∀ w, Fa w = Vx (Pipeline.arrRef spec1 w)) :
    dat.arrays Fa ⊢ (Pipeline.arrBufs (Ix := Unit) (Name := ℕ) (U := UR sig nD τ) (Lvl := ℕ) spec1 c Vx : sProp 𝕄) := by
  unfold Pipeline.arrBufs Dat.arrays
  rw [img1, bigSep_W1, bigSep_insert (by decide), bigSep_insert (by decide), bigSep_insert (by decide), bigSep_insert (by decide), bigSep_singleton]
  rw [whole1 c 0, whole1 c 1, whole1 c 2, whole1 c 3, whole1 c 4, whole1 c 5]
  rw [hF 0, hF 1, hF 2, hF 3, hF 4, hF 5, sh1_0 c dat hq, sh1_1 c dat hq, sh1_2 c dat hq, sh1_3 c dat hq, sh1_4 c dat hq, sh1_5 c dat]
  exact sep_mono .rfl (sep_mono .rfl (sep_mono .rfl
    (Idealize.SL.BI.sep_assoc'.trans (sep_mono (pointsTo_share (PosShare.mem_left_op_right fullShare)).2 .rfl))))

theorem arrays_of_unscopedBufs1 (c : Dev nD) (dat : Dat τ (Elt F) Unit ℕ (UR sig nD τ) ℕ cfg1 c) (hq : dat.q = q1)
    (Vx : (b : Ref sig .tc) → Buf (Elt F) ((c : Thread nD τ).loc b))
    (Fa : (w : Fin cfg1.W) → Buf (Elt F) ((cfg1.win w).arr.view.loc (c : Thread nD τ))) (hF : ∀ w, Fa w = Vx (Pipeline.arrRef spec1 w)) :
    (unscopedBufs (Ix := Unit) (Name := ℕ) (U := UR sig nD τ) (Lvl := ℕ) c Vx : sProp 𝕄)
      ⊢ iprop(dat.arrays Fa ∗ Pipeline.unscopedRest spec1 c Vx) := by
  rw [Pipeline.unscopedBufs_split₀ cfgs 1 winFacts₀1.arr_unscoped c Vx]
  exact sep_mono (arrays_of_arrBufs1 c dat hq Vx Fa hF) .rfl

theorem unscopedBufs_of_arrays1 (c : Dev nD) (dat : Dat τ (Elt F) Unit ℕ (UR sig nD τ) ℕ cfg1 c) (hq : dat.q = q1)
    (Vx Vx' : (b : Ref sig .tc) → Buf (Elt F) ((c : Thread nD τ).loc b))
    (Fa : (w : Fin cfg1.W) → Buf (Elt F) ((cfg1.win w).arr.view.loc (c : Thread nD τ))) (hF : ∀ w, Fa w = Vx' (Pipeline.arrRef spec1 w))
    (hrest : ∀ b, b ∉ Finset.univ.image (Pipeline.arrRef spec1) → Vx' b = Vx b) :
    iprop(dat.arrays Fa ∗ Pipeline.unscopedRest spec1 c Vx)
      ⊢ (unscopedBufs (Ix := Unit) (Name := ℕ) (U := UR sig nD τ) (Lvl := ℕ) c Vx' : sProp 𝕄) := by
  rw [Pipeline.unscopedBufs_split₀ cfgs 1 winFacts₀1.arr_unscoped c Vx']
  refine sep_mono (arrBufs_of_arrays1 c dat hq Vx' Fa hF) (Entails.of_eq ?_)
  unfold Pipeline.unscopedRest
  exact bigSep_congr fun b hb => by rw [hrest b (Finset.mem_sdiff.mp hb).2]

theorem hF1 (c : Dev nD) (w : Fin cfg1.W) :
    (dat1 (Vr5 m) c).arrAt w cfg1.N = (fun b => V6 m (outs m) c b) (Pipeline.arrRef spec1 w) := by
  have hinp : ∀ (w : Fin cfg1.W) (hw : (cfg1.win w).isOut = false) (r : Ref sig .tc) (hr : Pipeline.arrRef spec1 w = r) (hne : r ∉ ([main_v8] : List (Ref sig .tc))),
      (dat1 (Vr5 m) c).arrAt w cfg1.N = (fun b => V6 m (outs m) c b) (Pipeline.arrRef spec1 w) := fun w hw r hr hne => by
    subst hr
    exact ((dat1 (Vr5 m) c).arrAt_in w hw _).trans ((A_eq1 (Vr5 m) c w).trans
      ((congrFun (V5_outs m c) _).symm.trans (V6_of m (outs m) c _ hne).symm))
  match w with
  | ⟨0, _⟩ => exact hinp 0 rfl main_arg0 rfl (by decide)
  | ⟨1, _⟩ => exact hinp 1 rfl main_arg1 rfl (by decide)
  | ⟨2, _⟩ => exact hinp 2 rfl main_arg2 rfl (by decide)
  | ⟨3, _⟩ => exact hinp 3 rfl main_v7 rfl (by decide)
  | ⟨4, _⟩ => exact hinp 4 rfl main_v7 rfl (by decide)
  | ⟨5, _⟩ => exact (show (dat1 (Vr5 m) c).arrAt 5 cfg1.N = o6 m c from rfl).trans ((outs_v8 m 6 c).symm.trans (by
      show outs m 6 main_v8 c = Function.update (V5 m (outs m) c) (Proc.tc.devRef main_v8) (outs m 6 main_v8 c) (Proc.tc.devRef main_v8)
      rw [Function.update_self]))

theorem hrest1 (c : Dev nD) : ∀ b, b ∉ Finset.univ.image (Pipeline.arrRef spec1) → (fun b => V6 m (outs m) c b) b = Vr5 m c b :=
  fun b hb => (V6_of m (outs m) c b (fun h => hb (Finset.mem_image.mpr ⟨5, Finset.mem_univ _, (List.mem_singleton.mp h).symm⟩))).trans
    (congrFun (V5_outs m c) _)

set_option backward.isDefEq.respectTransparency.types false in

def reg1 : Pipeline.RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (Vr5 m) c).loose
  hwaits := Pipeline.hwaits_of_owed_zero _ _ _ _ Lz lvz 1 fun _ _ => rfl
  pre c := iprop(StableHlo.held (c : Thread nD τ) (Pipeline.ucRefs τ sig) (V5 m (outs m) c) ∗ Ee 1 c)
  post c := iprop(StableHlo.held (c : Thread nD τ) (Pipeline.ucRefs τ sig) (V6 m (outs m) c) ∗ Ee 2 c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none, V5_outs m c]
    have hsplit := arrays_of_unscopedBufs1 c (pdats m 1 c) rfl (Vr5 m c) ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vr5 m) c)
    unfold Pipeline.ΦA
    iintro ⟨Hp, -, Hr⟩
    isplitl [Hr]; · iexact Hr
    iexact Hp
  hout c := by
    refine BIBase.Entails.trans (hout1 (Vr5 m) c) ?_
    rw [Pipeline.ownSems0_none]; unfold Pipeline.ΦA
    iintro ⟨Hr, Hp⟩
    isplitl [Hp]; · iexact Hp
    isplitr; · iempintro
    iexact Hr
  hexit c := by
    have hjoin := unscopedBufs_of_arrays1 c (pdats m 1 c) rfl (Vr5 m c) (fun b => V6 m (outs m) c b)
      ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
import proofs.«164609_j68143951118910_1_alg».proof.Proof.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem img2 : (Finset.univ.image (Pipeline.arrRef spec2)) = ({main_arg0, main_v8, main_arg3, main_v7, main_v9} : Finset (Ref sig .tc)) := by decide

section
variable (c : Dev nD) (dat : Dat τ (Elt F) Unit ℕ (UR sig nD τ) ℕ cfg2 c) (hq : dat.q = q2)
include hq
theorem sh2_0 : dat.share 0 = fullShare := by unfold Dat.share; rw [hq]; rfl
theorem sh2_1 : dat.share 1 = fullShare := by unfold Dat.share; rw [hq]; rfl
theorem sh2_2 : dat.share 2 = fullShare := by unfold Dat.share; rw [hq]; rfl
theorem sh2_3 : dat.share 3 = fullShare.left := by unfold Dat.share; rw [hq]; rfl
theorem sh2_4 : dat.share 4 = fullShare.right := by unfold Dat.share; rw [hq]; rfl
omit hq in
theorem sh2_5 : dat.share 5 = fullShare := by unfold Dat.share; rfl
end

theorem whole2 (c : Dev nD) (w : Fin cfg2.W) (q : PosShare TreeShare) (f : Buf (Elt F) ((cfg2.win w).arr.view.loc (c : Thread nD τ))) :
    ((cfg2.win w).arr.view.loc (c : Thread nD τ) ↦[(cfg2.win w).arr.view.set]{q} f : sProp 𝕄)
      = ((cfg2.win w).arr.view.loc (c : Thread nD τ) ↦{q} f) := by
  rw [(arr_whole2 w).set_eq_univ]

set_option maxHeartbeats 4000000 in

theorem arrays_of_arrBufs2 (c : Dev nD) (dat : Dat τ (Elt F) Unit ℕ (UR sig nD τ) ℕ cfg2 c) (hq : dat.q = q2)
    (Vx : (b : Ref sig .tc) → Buf (Elt F) ((c : Thread nD τ).loc b))
    (Fa : (w : Fin cfg2.W) → Buf (Elt F) ((cfg2.win w).arr.view.loc (c : Thread nD τ))) (hF : ∀ w, Fa w = Vx (Pipeline.arrRef spec2 w)) :
    (Pipeline.arrBufs (Ix := Unit) (Name := ℕ) (U := UR sig nD τ) (Lvl := ℕ) spec2 c Vx : sProp 𝕄) ⊢ dat.arrays Fa := by
  unfold Pipeline.arrBufs Dat.arrays
  rw [img2, bigSep_W2, bigSep_insert (by decide), bigSep_insert (by decide), bigSep_insert (by decide), bigSep_insert (by decide), bigSep_singleton]
  rw [whole2 c 0, whole2 c 1, whole2 c 2, whole2 c 3, whole2 c 4, whole2 c 5]
  rw [hF 0, hF 1, hF 2, hF 3, hF 4, hF 5, sh2_0 c dat hq, sh2_1 c dat hq, sh2_2 c dat hq, sh2_3 c dat hq, sh2_4 c dat hq, sh2_5 c dat]
  exact sep_mono .rfl (sep_mono .rfl (sep_mono .rfl
    ((sep_mono (pointsTo_share (PosShare.mem_left_op_right fullShare)).1 .rfl).trans Idealize.SL.BI.sep_assoc)))

set_option maxHeartbeats 4000000 in

theorem arrBufs_of_arrays2 (c : Dev nD) (dat : Dat τ (Elt F) Unit ℕ (UR sig nD τ) ℕ cfg2 c) (hq : dat.q = q2)
    (Vx : (b : Ref sig .tc) → Buf (Elt F) ((c : Thread nD τ).loc b))
    (Fa : (w : Fin cfg2.W) → Buf (Elt F) ((cfg2.win w).arr.view.loc (c : Thread nD τ))) (hF : ∀ w, Fa w = Vx (Pipeline.arrRef spec2 w)) :
    dat.arrays Fa ⊢ (Pipeline.arrBufs (Ix := Unit) (Name := ℕ) (U := UR sig nD τ) (Lvl := ℕ) spec2 c Vx : sProp 𝕄) := by
  unfold Pipeline.arrBufs Dat.arrays
  rw [img2, bigSep_W2, bigSep_insert (by decide), bigSep_insert (by decide), bigSep_insert (by decide), bigSep_insert (by decide), bigSep_singleton]
  rw [whole2 c 0, whole2 c 1, whole2 c 2, whole2 c 3, whole2 c 4, whole2 c 5]
  rw [hF 0, hF 1, hF 2, hF 3, hF 4, hF 5, sh2_0 c dat hq, sh2_1 c dat hq, sh2_2 c dat hq, sh2_3 c dat hq, sh2_4 c dat hq, sh2_5 c dat]
  exact sep_mono .rfl (sep_mono .rfl (sep_mono .rfl
    (Idealize.SL.BI.sep_assoc'.trans (sep_mono (pointsTo_share (PosShare.mem_left_op_right fullShare)).2 .rfl))))

theorem arrays_of_unscopedBufs2 (c : Dev nD) (dat : Dat τ (Elt F) Unit ℕ (UR sig nD τ) ℕ cfg2 c) (hq : dat.q = q2)
    (Vx : (b : Ref sig .tc) → Buf (Elt F) ((c : Thread nD τ).loc b))
    (Fa : (w : Fin cfg2.W) → Buf (Elt F) ((cfg2.win w).arr.view.loc (c : Thread nD τ))) (hF : ∀ w, Fa w = Vx (Pipeline.arrRef spec2 w)) :
    (unscopedBufs (Ix := Unit) (Name := ℕ) (U := UR sig nD τ) (Lvl := ℕ) c Vx : sProp 𝕄)
      ⊢ iprop(dat.arrays Fa ∗ Pipeline.unscopedRest spec2 c Vx) := by
  rw [Pipeline.unscopedBufs_split₀ cfgs 2 winFacts₀2.arr_unscoped c Vx]
  exact sep_mono (arrays_of_arrBufs2 c dat hq Vx Fa hF) .rfl

theorem unscopedBufs_of_arrays2 (c : Dev nD) (dat : Dat τ (Elt F) Unit ℕ (UR sig nD τ) ℕ cfg2 c) (hq : dat.q = q2)
    (Vx Vx' : (b : Ref sig .tc) → Buf (Elt F) ((c : Thread nD τ).loc b))
    (Fa : (w : Fin cfg2.W) → Buf (Elt F) ((cfg2.win w).arr.view.loc (c : Thread nD τ))) (hF : ∀ w, Fa w = Vx' (Pipeline.arrRef spec2 w))
    (hrest : ∀ b, b ∉ Finset.univ.image (Pipeline.arrRef spec2) → Vx' b = Vx b) :
    iprop(dat.arrays Fa ∗ Pipeline.unscopedRest spec2 c Vx)
      ⊢ (unscopedBufs (Ix := Unit) (Name := ℕ) (U := UR sig nD τ) (Lvl := ℕ) c Vx' : sProp 𝕄) := by
  rw [Pipeline.unscopedBufs_split₀ cfgs 2 winFacts₀2.arr_unscoped c Vx']
  refine sep_mono (arrBufs_of_arrays2 c dat hq Vx' Fa hF) (Entails.of_eq ?_)
  unfold Pipeline.unscopedRest
  exact bigSep_congr fun b hb => by rw [hrest b (Finset.mem_sdiff.mp hb).2]

theorem hF2 (c : Dev nD) (w : Fin cfg2.W) :
    (dat2 (Vr6 m) c).arrAt w cfg2.N = (fun b => V7 m (outs m) c b) (Pipeline.arrRef spec2 w) := by
  have hinp : ∀ (w : Fin cfg2.W) (hw : (cfg2.win w).isOut = false) (r : Ref sig .tc) (hr : Pipeline.arrRef spec2 w = r) (hne : r ∉ ([main_v9] : List (Ref sig .tc))),
      (dat2 (Vr6 m) c).arrAt w cfg2.N = (fun b => V7 m (outs m) c b) (Pipeline.arrRef spec2 w) := fun w hw r hr hne => by
    subst hr
    exact ((dat2 (Vr6 m) c).arrAt_in w hw _).trans ((A_eq2 (Vr6 m) c w).trans
      ((congrFun (V6_outs m c) _).symm.trans (V7_of m (outs m) c _ hne).symm))
  match w with
  | ⟨0, _⟩ => exact hinp 0 rfl main_arg0 rfl (by decide)
  | ⟨1, _⟩ => exact hinp 1 rfl main_v8 rfl (by decide)
  | ⟨2, _⟩ => exact hinp 2 rfl main_arg3 rfl (by decide)
  | ⟨3, _⟩ => exact hinp 3 rfl main_v7 rfl (by decide)
  | ⟨4, _⟩ => exact hinp 4 rfl main_v7 rfl (by decide)
  | ⟨5, _⟩ => exact (show (dat2 (Vr6 m) c).arrAt 5 cfg2.N = o7 m c from rfl).trans ((outs_v9 m 7 c).symm.trans (by
      show outs m 7 main_v9 c = Function.update (V6 m (outs m) c) (Proc.tc.devRef main_v9) (outs m 7 main_v9 c) (Proc.tc.devRef main_v9)
      rw [Function.update_self]))

theorem hrest2 (c : Dev nD) : ∀ b, b ∉ Finset.univ.image (Pipeline.arrRef spec2) → (fun b => V7 m (outs m) c b) b = Vr6 m c b :=
  fun b hb => (V7_of m (outs m) c b (fun h => hb (Finset.mem_image.mpr ⟨5, Finset.mem_univ _, (List.mem_singleton.mp h).symm⟩))).trans
    (congrFun (V6_outs m c) _)

set_option backward.isDefEq.respectTransparency.types false in

def reg2 : Pipeline.RegionSeg (pcfgs (F := F)) adm (pdats m) () defs₀ 𝒱₀ Lz lvz 2 where
  win := winFacts₀2
  block_pos := block_pos2
  stage_whole := stage_whole2
  K := PEmpty
  osem k := k.elim
  ho := Pipeline.OwnSemFacts.none _
  hbody c := (body_obligation2 (Vr6 m) c).loose
  hwaits := Pipeline.hwaits_of_owed_zero _ _ _ _ Lz lvz 2 fun _ _ => rfl
  pre c := iprop(StableHlo.held (c : Thread nD τ) (Pipeline.ucRefs τ sig) (V6 m (outs m) c) ∗ Ee 2 c)
  post c := iprop(StableHlo.held (c : Thread nD τ) (Pipeline.ucRefs τ sig) (V7 m (outs m) c) ∗ Ee 3 c)
  X c := iprop(∃ r, prngReg c r)
  Y c := iprop(∃ r, prngReg c r)
  Z c := Pipeline.unscopedRest (Ix := Unit) (Name := ℕ) (U := UR sig nD τ) (Lvl := ℕ) spec2 c (Vr6 m c)
  hentry c := by
    rw [Pipeline.ownSems0_none, V6_outs m c]
    have hsplit := arrays_of_unscopedBufs2 c (pdats m 2 c) rfl (Vr6 m c) ((pdats m 2 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vr6 m) c)
    unfold Pipeline.ΦA
    iintro ⟨Hp, -, Hr⟩
    isplitl [Hr]; · iexact Hr
    iexact Hp
  hout c := by
    refine BIBase.Entails.trans (hout2 (Vr6 m) c) ?_
    rw [Pipeline.ownSems0_none]; unfold Pipeline.ΦA
    iintro ⟨Hr, Hp⟩
    isplitl [Hp]; · iexact Hp
    isplitr; · iempintro
    iexact Hr
  hexit c := by
    have hjoin := unscopedBufs_of_arrays2 c (pdats m 2 c) rfl (Vr6 m c) (fun b => V7 m (outs m) c b)
      ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
import proofs.«164609_j68143951118910_1_alg».proof.Proof.Reg0
import proofs.«164609_j68143951118910_1_alg».proof.Proof.Reg1
import proofs.«164609_j68143951118910_1_alg».proof.Proof.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hE3 (c : Dev nD) : Ee (F := F) 3 c ⊢ (iprop(∃ W, owes (c : Thread nD τ) (0 : CellTallies nD τ sig Unit) W) : sProp 𝕄) := by
  iintro ⟨-, H⟩; iexact H

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = V8 m (outs m) c b) := by
  refine Pipeline.θ_run_regions_kit_dev (pcfgs (F := F)) adm (pdats m) () cellOf_inj emb₁ defs₀ 𝒱₀ Lz lvz m ρ main
    (segs m (outs m) 𝒱₀ Lz lvz Ee () (pdats m) (reg0 m) (reg1 m) (reg2 m))
    (fun c Q => by
      rewrite [main_chain c, Seg.run_eq_chain,
        show (segs m (outs m) 𝒱₀ Lz lvz Ee () (pdats m) (reg0 m) (reg1 m) (reg2 m) c).map Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ee 0 c))
    (Tₙ := fun c => StableHlo.held (c : Thread nD τ) (Pipeline.ucRefs τ sig) (V8 m (outs m) c))
    (hch := fun c => ⟨.rfl, .rfl, .rfl, .rfl, .rfl, .rfl, .rfl, .rfl, sep_mono .rfl (hE3 c)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V8 m (outs m) c b)
    (hfin := fun c s' => by
      iintro ⟨Hh, HSI⟩
      unfold StableHlo.held
      imodintro
      iapply (pointsTo_read_all (Pipeline.ucRefs τ sig) (fun b => (((c : Thread nD τ)).1, b)) (V8 m (outs m) c) s')
      isplitl [Hh] <;> iassumption)
    (hQ := fun _ h => h)

-- The run with the result named: read at the result it names it, read at the arguments it is the frame.
theorem run_value : θ_run defs (onTc (τ := τ) (main (F := F))) ⟨m, fun _ => 0, ρ⟩ (fun r => ∀ c : Dev nD,
      r.2.mem ((c.tc : Thread nD τ).loc main_v13) = V8 m (outs m) c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v13 (by decide)),
     (h c _ (mem_uc main_arg0 (by decide))).trans (V8_main_arg0 m (outs m) c),
     (h c _ (mem_uc main_arg1 (by decide))).trans (V8_main_arg1 m (outs m) c),
     (h c _ (mem_uc main_arg2 (by decide))).trans (V8_main_arg2 m (outs m) c),
     (h c _ (mem_uc main_arg3 (by decide))).trans (V8_main_arg3 m (outs m) c),
     (h c _ (mem_uc main_arg4 (by decide))).trans (V8_main_arg4 m (outs m) c),
     (h c _ (mem_uc main_arg5 (by decide))).trans (V8_main_arg5 m (outs m) c)⟩) (run_all m ρ)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ)

end Cert.KernelIdeal.Hand

end
-- ==== Proof.DScal.lean ====
import Idealize.ShloMosaic.PureOps.Ideal

noncomputable section

namespace Cert

open Idealize.ShloMosaic

def dScal (s : Ideal .f32) : Ideal .f32 :=
  Scalar.select (FloatOps.cmpf (F := Ideal) .ogt s (FloatOps.ofBits .f32 0x00000000#32))
    (FloatOps.hostUnary (F := Ideal) .rsqrt
      (Scalar.select (FloatOps.cmpf (F := Ideal) .ogt s (FloatOps.ofBits .f32 0x00000000#32)) s (FloatOps.ofBits .f32 0x3F800000#32)))
    (FloatOps.ofBits .f32 0x00000000#32)

def dScalE : EReal → EReal := dScal

end Cert

end
-- ==== Proof.HostValue.lean ====
import proofs.«164609_j68143951118910_1_alg».proof.Proof.Gen.KernelIdeal.Launch
import proofs.«164609_j68143951118910_1_alg».proof.Proof.DScal
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

theorem d_apply (W : Valuation τ sig (Elt Ideal)) (p : Fin 8192) :
    (StableHlo.after hostOps1_3 (StableHlo.after hostOps1_2 (StableHlo.after hostOps1_1 (StableHlo.after hostOps1 W)))) main_v7 (ix2 p (0 : Fin 1))
      = Cert.dScal (W main_v0 (ix2 p (0 : Fin 1))) := by
  show StableHlo.after hostOps1_3 (StableHlo.after hostOps1_2 (StableHlo.after hostOps1_1 (StableHlo.after hostOps1 W)))
      (Proc.devRef .tc main_v7) (ix2 p (0 : Fin 1)) = _
  after_results
  rfl

theorem lhs_head_0 (i : S8192x10.Idx) (s : dot_S8192x64_S64x10_S8192x10_1_0_0_1_n_n.contr.Idx) :
    (dot_S8192x64_S64x10_S8192x10_1_0_0_1_n_n.lhsIdx i s 0).val = (i 0).val := by
  unfold DotDims.lhsIdx
  rw [dif_neg (show ¬(0 : Fin S8192x64.rank) ∈ dot_S8192x64_S64x10_S8192x10_1_0_0_1_n_n.lhsBatch by decide), dif_pos (show (0 : Fin S8192x64.rank) ∈ dot_S8192x64_S64x10_S8192x10_1_0_0_1_n_n.lhsNonContracting by decide)]
  rfl

theorem lhs_head_1 (i : S8192x10.Idx) (s : dot_S8192x64_S64x10_S8192x10_1_0_0_1_n_n.contr.Idx) :
    (dot_S8192x64_S64x10_S8192x10_1_0_0_1_n_n.lhsIdx i s 1).val = (s ⟨0, by decide⟩).val :=
  dot_S8192x64_S64x10_S8192x10_1_0_0_1_n_n.lhsIdx_val_of_single rfl i s

theorem rhs_head_0 (i : S8192x10.Idx) (s : dot_S8192x64_S64x10_S8192x10_1_0_0_1_n_n.contr.Idx) :
    (dot_S8192x64_S64x10_S8192x10_1_0_0_1_n_n.rhsIdx i s 0).val = (s ⟨0, by decide⟩).val :=
  dot_S8192x64_S64x10_S8192x10_1_0_0_1_n_n.rhsIdx_val_of_single rfl i s

theorem rhs_head_1 (i : S8192x10.Idx) (s : dot_S8192x64_S64x10_S8192x10_1_0_0_1_n_n.contr.Idx) :
    (dot_S8192x64_S64x10_S8192x10_1_0_0_1_n_n.rhsIdx i s 1).val = (i 1).val := by
  unfold DotDims.rhsIdx
  rw [dif_neg (show ¬(1 : Fin S64x10.rank) ∈ dot_S8192x64_S64x10_S8192x10_1_0_0_1_n_n.rhsBatch by decide), dif_pos (show (1 : Fin S64x10.rank) ∈ dot_S8192x64_S64x10_S8192x10_1_0_0_1_n_n.rhsNonContracting by decide)]
  rfl

theorem dotHead_apply (x : (⟨S8192x64, .f32⟩ : BufTy).Contents (Elt Ideal)) (w : (⟨S64x10, .f32⟩ : BufTy).Contents (Elt Ideal))
    (p : Fin 8192) (q : Fin 10) :
    Host.dotGeneral (F := Ideal) (φ₁ := FTy.f32) (φ₂ := FTy.f32) dot_S8192x64_S64x10_S8192x10_1_0_0_1_n_n none x w (ix2 p q)
      = ∑ j : Fin 64, x (ix2 p j) * w (ix2 j q) := by
  simp only [Host.dotGeneral]
  rw [Ideal.dotGeneral_apply, ← Equiv.sum_comp (ValueIdx.contrEquiv1 dot_S8192x64_S64x10_S8192x10_1_0_0_1_n_n 64 rfl rfl).symm]
  refine Finset.sum_congr rfl fun k _ => ?_
  have hk := ValueIdx.contrEquiv1_symm_val dot_S8192x64_S64x10_S8192x10_1_0_0_1_n_n 64 rfl rfl k
  have el : dot_S8192x64_S64x10_S8192x10_1_0_0_1_n_n.lhsIdx (ix2 p q) ((ValueIdx.contrEquiv1 dot_S8192x64_S64x10_S8192x10_1_0_0_1_n_n 64 rfl rfl).symm k) = ix2 p k := funext fun a => Fin.ext (by
    match a with
    | ⟨0, _⟩ => exact lhs_head_0 _ _
    | ⟨1, _⟩ => exact (lhs_head_1 _ _).trans hk)
  have er : dot_S8192x64_S64x10_S8192x10_1_0_0_1_n_n.rhsIdx (ix2 p q) ((ValueIdx.contrEquiv1 dot_S8192x64_S64x10_S8192x10_1_0_0_1_n_n 64 rfl rfl).symm k) = ix2 k q := funext fun a => Fin.ext (by
    match a with
    | ⟨0, _⟩ => exact (rhs_head_0 _ _).trans hk
    | ⟨1, _⟩ => exact rhs_head_1 _ _)
  rw [el, er]

theorem biasHead_apply (b : (⟨S10, .f32⟩ : BufTy).Contents (Elt Ideal)) (p : Fin 8192) (q : Fin 10) :
    broadcastInDim S8192x10 ![0, 1] bcast_S1x10_S8192x10_0_1 (broadcastInDim S1x10 ![1] bcast_S10_S1x10_1 b) (ix2 p q) = b (ix1 q) := by
  refine (broadcastInDim_apply _ bcast_S1x10_S8192x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ bcast_S10_S1x10_1 b (ix2 (0 : Fin 1) q) (ix1 q) (fun a => match a with
    | ⟨0, _⟩ => by show q.val = if (10 : Nat) = 1 then 0 else q.val; rw [if_neg (by decide)])

theorem after3_v13 (W : Valuation τ sig (Elt Ideal)) :
    StableHlo.after hostOps3 W (Proc.devRef .tc main_v13)
      = addf (Host.dotGeneral (F := Ideal) (φ₁ := FTy.f32) (φ₂ := FTy.f32) dot_S8192x64_S64x10_S8192x10_1_0_0_1_n_n none (W (Proc.devRef .tc main_v9)) (W (Proc.devRef .tc main_arg4)))
          (broadcastInDim S8192x10 ![0, 1] bcast_S1x10_S8192x10_0_1 (broadcastInDim S1x10 ![1] bcast_S10_S1x10_1 (W (Proc.devRef .tc main_arg5)))) := by
  after_results

theorem head_apply_of (W : Valuation τ sig (Elt Ideal))
    (x : (⟨S8192x64, .f32⟩ : BufTy).Contents (Elt Ideal)) (w : (⟨S64x10, .f32⟩ : BufTy).Contents (Elt Ideal)) (b : (⟨S10, .f32⟩ : BufTy).Contents (Elt Ideal))
    (hx : W main_v9 = x) (hw : W main_arg4 = w) (hb : W main_arg5 = b) (p : Fin 8192) (q : Fin 10) :
    (StableHlo.after hostOps3 W) main_v13 (ix2 p q) = (∑ j : Fin 64, x (ix2 p j) * w (ix2 j q)) + b (ix1 q) := by
  show StableHlo.after hostOps3 W (Proc.devRef .tc main_v13) (ix2 p q) = _
  rw [after3_v13]
  show Host.dotGeneral (F := Ideal) (φ₁ := FTy.f32) (φ₂ := FTy.f32) dot_S8192x64_S64x10_S8192x10_1_0_0_1_n_n none (W (Proc.devRef .tc main_v9)) (W (Proc.devRef .tc main_arg4)) (ix2 p q)
      + broadcastInDim S8192x10 ![0, 1] bcast_S1x10_S8192x10_0_1 (broadcastInDim S1x10 ![1] bcast_S10_S1x10_1 (W (Proc.devRef .tc main_arg5))) (ix2 p q) = _
  subst hx hw hb
  exact congrArg₂ (· + ·) (dotHead_apply _ _ p q) (biasHead_apply _ p q)

theorem head_apply (W : Valuation τ sig (Elt Ideal)) (p : Fin 8192) (q : Fin 10) :
    (StableHlo.after hostOps3 W) main_v13 (ix2 p q)
      = (∑ j : Fin 64, (show (⟨S8192x64, .f32⟩ : BufTy).Contents (Elt Ideal) from W main_v9) (ix2 p j)
            * (show (⟨S64x10, .f32⟩ : BufTy).Contents (Elt Ideal) from W main_arg4) (ix2 j q))
          + (show (⟨S10, .f32⟩ : BufTy).Contents (Elt Ideal) from W main_arg5) (ix1 q) :=
  head_apply_of W _ _ _ rfl rfl rfl p q

end Cert.KernelIdeal.Hand

end
-- ==== Proof.Spec.lean ====
import Mathlib.Data.EReal.Basic
import Mathlib.Algebra.BigOperators.Fin
import Mathlib.Logic.Equiv.Fin.Basic

noncomputable section

namespace Cert.Spec

def rowSum (A : Fin 8192 → Fin 8192 → EReal) : Fin 8192 → EReal := fun p => ∑ k : Fin 8192, A p k

def feat (x : Fin 8192 → Fin 64 → EReal) (W : Fin 64 → Fin 64 → EReal) : Fin 8192 → Fin 64 → EReal :=
  fun k q => ∑ j : Fin 64, x k j * W j q

def layer (A : Fin 8192 → Fin 8192 → EReal) (d : Fin 8192 → EReal) (x : Fin 8192 → Fin 64 → EReal) (W : Fin 64 → Fin 64 → EReal) :
    Fin 8192 → Fin 64 → EReal :=
  fun p q => max (d p * ∑ k : Fin 8192, A p k * (d k * feat x W k q)) 0

def head (x : Fin 8192 → Fin 64 → EReal) (Wc : Fin 64 → Fin 10 → EReal) (bc : Fin 10 → EReal) : Fin 8192 → Fin 10 → EReal :=
  fun p q => (∑ j : Fin 64, x p j * Wc j q) + bc q

def result (dScal : EReal → EReal) (A : Fin 8192 → Fin 8192 → EReal) (emb : Fin 8192 → Fin 64 → EReal)
    (W1 W2 : Fin 64 → Fin 64 → EReal) (Wc : Fin 64 → Fin 10 → EReal) (bc : Fin 10 → EReal) : Fin 8192 → Fin 10 → EReal :=
  let d : Fin 8192 → EReal := fun p => dScal (rowSum A p)
  head (layer A d (layer A d emb W1) W2) Wc bc

def col (kb : Fin 8) (j : Fin 1024) : Fin 8192 := ⟨kb.val * 1024 + j.val, by have := kb.isLt; have := j.isLt; omega⟩

theorem sum_blocks (f : Fin 8192 → EReal) : ∑ k : Fin 8192, f k = ∑ kb : Fin 8, ∑ j : Fin 1024, f (col kb j) := by

  have h := Equiv.sum_comp (finProdFinEquiv : Fin 8 × Fin 1024 ≃ Fin 8192) f
  rw [← h, Fintype.sum_prod_type]
  refine Finset.sum_congr rfl fun kb _ => Finset.sum_congr rfl fun j _ => ?_
  congr 1
  apply Fin.ext
  simp only [finProdFinEquiv, Equiv.coe_fn_mk, col]
  omega

end Cert.Spec

end
-- ==== Proof.Bridge.lean ====
import proofs.«164609_j68143951118910_1_alg».proof.Proof.Gen.KernelIdeal.Regions
import proofs.«164609_j68143951118910_1_alg».proof.Proof.HostValue
import proofs.«164609_j68143951118910_1_alg».proof.Proof.Spec
import proofs.«164609_j68143951118910_1_alg».proof.Proof.DScal
import Idealize.ShloMosaic.Lib.ValueIdx

noncomputable section
namespace Cert.KernelIdeal.Hand

open Cert.KernelIdeal Cert.KernelIdeal.Gen Idealize.ShloMosaic Idealize.ShloMosaic.TcCoe Idealize.ShloMosaic.ValueIdx

section Stages

variable (A : (⟨S8192x8192, .f32⟩ : BufTy).Contents (Elt Ideal)) (X : (⟨S8192x64, .f32⟩ : BufTy).Contents (Elt Ideal))
  (W1 W2 : (⟨S64x64, .f32⟩ : BufTy).Contents (Elt Ideal)) (Wc : (⟨S64x10, .f32⟩ : BufTy).Contents (Elt Ideal)) (bc : (⟨S10, .f32⟩ : BufTy).Contents (Elt Ideal))
  (s d : (⟨S8192x1, .f32⟩ : BufTy).Contents (Elt Ideal)) (y1 y2 : (⟨S8192x64, .f32⟩ : BufTy).Contents (Elt Ideal))

local notation "A'" => (fun (p k : Fin 8192) => A (ix2 p k))

local notation "d'" => (fun (p : Fin 8192) => Cert.dScalE (Cert.Spec.rowSum A' p))

local notation "X'" => (fun (p : Fin 8192) (j : Fin 64) => X (ix2 p j))
local notation "W1'" => (fun (j q : Fin 64) => W1 (ix2 j q))
local notation "W2'" => (fun (j q : Fin 64) => W2 (ix2 j q))

theorem d_spec (hdv : ∀ p : Fin 8192, d (ix2 p (0 : Fin 1)) = Cert.dScal (s (ix2 p (0 : Fin 1))))
    (H0 : ∀ p : Fin 8192, s (ix2 p (0 : Fin 1)) = Cert.Spec.rowSum A' p) (p : Fin 8192) :
    d (ix2 p (0 : Fin 1)) = d' p := by
  rw [hdv, H0]; rfl

theorem layer_comm (A : Fin 8192 → Fin 8192 → EReal) (d : Fin 8192 → EReal) (x : Fin 8192 → Fin 64 → EReal)
    (W : Fin 64 → Fin 64 → EReal) (p : Fin 8192) (q : Fin 64) :
    max (d p * ∑ k : Fin 8192, A p k * ((∑ i : Fin 64, x k i * W i q) * d k)) 0 = Cert.Spec.layer A d x W p q := by
  unfold Cert.Spec.layer Cert.Spec.feat
  exact congrArg (max · 0) (congrArg (d p * ·) (Finset.sum_congr rfl fun k _ => congrArg (A p k * ·) (mul_comm _ _)))

theorem layer1_spec (hd : ∀ p : Fin 8192, d (ix2 p (0 : Fin 1)) = d' p)
    (H1 : ∀ (p : Fin 8192) (q : Fin 64), y1 (ix2 p q) = max (d (ix2 p (0 : Fin 1)) * ∑ k : Fin 8192, A (ix2 p k) * ((∑ i : Fin 64, X (ix2 k i) * W1 (ix2 i q)) * d (ix2 k (0 : Fin 1)))) 0)
    (p : Fin 8192) (q : Fin 64) : y1 (ix2 p q) = Cert.Spec.layer A' d' X' W1' p q := by
  rw [H1]
  simp only [hd]
  exact layer_comm A' d' X' W1' p q

theorem layer2_spec (hd : ∀ p : Fin 8192, d (ix2 p (0 : Fin 1)) = d' p)
    (h1 : ∀ (p : Fin 8192) (q : Fin 64), y1 (ix2 p q) = Cert.Spec.layer A' d' X' W1' p q)
    (H2 : ∀ (p : Fin 8192) (q : Fin 64), y2 (ix2 p q) = max (d (ix2 p (0 : Fin 1)) * ∑ k : Fin 8192, A (ix2 p k) * ((∑ i : Fin 64, y1 (ix2 k i) * W2 (ix2 i q)) * d (ix2 k (0 : Fin 1)))) 0)
    (p : Fin 8192) (q : Fin 64) : y2 (ix2 p q) = Cert.Spec.layer A' d' (Cert.Spec.layer A' d' X' W1') W2' p q := by
  rw [H2]
  simp only [hd, h1]
  exact layer_comm A' d' (Cert.Spec.layer A' d' X' W1') W2' p q

theorem head_spec (h2 : ∀ (p : Fin 8192) (q : Fin 64), y2 (ix2 p q) = Cert.Spec.layer A' d' (Cert.Spec.layer A' d' X' W1') W2' p q)
    (p : Fin 8192) (q : Fin 10) :
    (∑ j : Fin 64, y2 (ix2 p j) * Wc (ix2 j q)) + bc (ix1 q)
      = Cert.Spec.result Cert.dScalE A' X' W1' W2' (fun j q => Wc (ix2 j q)) (fun q => bc (ix1 q)) p q := by
  simp only [h2]
  rfl

end Stages

variable (m : (ℓ : Loc nD τ sig) → Buf (Elt Ideal) ℓ) (outs : Outs (F := Ideal)) (c : Dev nD)

theorem V5_as_launched (r : Ref sig .tc) (h1 : r ∉ ([main_v0] : List (Ref sig .tc))) (h2 : r ∉ hostOps1_W)
    (h3 : r ∉ hostOps1_1_W) (h4 : r ∉ hostOps1_2_W) (h5 : r ∉ hostOps1_3_W) : V5 m outs c r = V0 m c r :=
  (V5_of m outs c r h5).trans <| (V4_of m outs c r h4).trans <| (V3_of m outs c r h3).trans <|
    (V2_of m outs c r h2).trans <| V1_of m outs c r h1

theorem V5_main_arg0 : V5 m outs c main_arg0 = m ((c : Thread nD τ).loc main_arg0) :=
  V5_as_launched m outs c main_arg0 (by decide) (by decide) (by decide) (by decide) (by decide)
theorem V5_main_arg1 : V5 m outs c main_arg1 = m ((c : Thread nD τ).loc main_arg1) :=
  V5_as_launched m outs c main_arg1 (by decide) (by decide) (by decide) (by decide) (by decide)
theorem V5_main_arg2 : V5 m outs c main_arg2 = m ((c : Thread nD τ).loc main_arg2) :=
  V5_as_launched m outs c main_arg2 (by decide) (by decide) (by decide) (by decide) (by decide)
theorem V6_main_arg0 : V6 m outs c main_arg0 = m ((c : Thread nD τ).loc main_arg0) :=
  (V6_of m outs c main_arg0 (by decide)).trans (V5_main_arg0 m outs c)
theorem V6_main_arg3 : V6 m outs c main_arg3 = m ((c : Thread nD τ).loc main_arg3) :=
  (V6_of m outs c main_arg3 (by decide)).trans <|
    V5_as_launched m outs c main_arg3 (by decide) (by decide) (by decide) (by decide) (by decide)
theorem V7_main_arg4 : V7 m outs c main_arg4 = m ((c : Thread nD τ).loc main_arg4) :=
  (V7_of m outs c main_arg4 (by decide)).trans <| (V6_of m outs c main_arg4 (by decide)).trans <|
    V5_as_launched m outs c main_arg4 (by decide) (by decide) (by decide) (by decide) (by decide)
theorem V7_main_arg5 : V7 m outs c main_arg5 = m ((c : Thread nD τ).loc main_arg5) :=
  (V7_of m outs c main_arg5 (by decide)).trans <| (V6_of m outs c main_arg5 (by decide)).trans <|
    V5_as_launched m outs c main_arg5 (by decide) (by decide) (by decide) (by decide) (by decide)

theorem V6_main_v7 : V6 m outs c main_v7 = V5 m outs c main_v7 := V6_of m outs c main_v7 (by decide)

theorem V1_main_v0 : V1 m outs c main_v0 = outs 1 main_v0 c := by
  show Function.update (V0 m c) (Proc.devRef .tc main_v0) (outs 1 main_v0 c) (Proc.devRef .tc main_v0) = _
  exact Function.update_self _ _ _
theorem V6_main_v8 : V6 m outs c main_v8 = outs 6 main_v8 c := by
  show Function.update (V5 m outs c) (Proc.devRef .tc main_v8) (outs 6 main_v8 c) (Proc.devRef .tc main_v8) = _
  exact Function.update_self _ _ _
theorem V7_main_v9 : V7 m outs c main_v9 = outs 7 main_v9 c := by
  show Function.update (V6 m outs c) (Proc.devRef .tc main_v9) (outs 7 main_v9 c) (Proc.devRef .tc main_v9) = _
  exact Function.update_self _ _ _

theorem d_at (s d : (⟨S8192x1, .f32⟩ : BufTy).Contents (Elt Ideal)) (hs : outs 1 main_v0 c = s) (hd : V5 m outs c main_v7 = d) (p : Fin 8192) :
    d (ix2 p (0 : Fin 1)) = Cert.dScal (s (ix2 p (0 : Fin 1))) := by
  subst hs hd
  have h := d_apply (V1 m outs c) p
  rw [V1_main_v0] at h
  exact h

theorem kernel_result
    (A : (⟨S8192x8192, .f32⟩ : BufTy).Contents (Elt Ideal)) (X : (⟨S8192x64, .f32⟩ : BufTy).Contents (Elt Ideal))
    (W1 W2 : (⟨S64x64, .f32⟩ : BufTy).Contents (Elt Ideal)) (Wc : (⟨S64x10, .f32⟩ : BufTy).Contents (Elt Ideal)) (bc : (⟨S10, .f32⟩ : BufTy).Contents (Elt Ideal))
    (hA : m ((c : Thread nD τ).loc main_arg0) = A) (hX : m ((c : Thread nD τ).loc main_arg1) = X)
    (hW1 : m ((c : Thread nD τ).loc main_arg2) = W1) (hW2 : m ((c : Thread nD τ).loc main_arg3) = W2)
    (hWc : m ((c : Thread nD τ).loc main_arg4) = Wc) (hbc : m ((c : Thread nD τ).loc main_arg5) = bc)
    (s d : (⟨S8192x1, .f32⟩ : BufTy).Contents (Elt Ideal)) (y1 y2 : (⟨S8192x64, .f32⟩ : BufTy).Contents (Elt Ideal))
    (hs : outs 1 main_v0 c = s) (hd : V5 m outs c main_v7 = d) (hy1 : outs 6 main_v8 c = y1) (hy2 : outs 7 main_v9 c = y2)
    (H0 : ∀ p : Fin 8192, s (ix2 p (0 : Fin 1)) = Cert.Spec.rowSum (fun p k => A (ix2 p k)) p)
    (H1 : ∀ (p : Fin 8192) (q : Fin 64), y1 (ix2 p q) = max (d (ix2 p (0 : Fin 1)) * ∑ k : Fin 8192, A (ix2 p k) * ((∑ i : Fin 64, X (ix2 k i) * W1 (ix2 i q)) * d (ix2 k (0 : Fin 1)))) 0)
    (H2 : ∀ (p : Fin 8192) (q : Fin 64), y2 (ix2 p q) = max (d (ix2 p (0 : Fin 1)) * ∑ k : Fin 8192, A (ix2 p k) * ((∑ i : Fin 64, y1 (ix2 k i) * W2 (ix2 i q)) * d (ix2 k (0 : Fin 1)))) 0)
    (p : Fin 8192) (q : Fin 10) :
    V8 m outs c main_v13 (ix2 p q)
      = Cert.Spec.result Cert.dScalE (fun p k => A (ix2 p k)) (fun p j => X (ix2 p j)) (fun j q => W1 (ix2 j q)) (fun j q => W2 (ix2 j q)) (fun j q => Wc (ix2 j q)) (fun q => bc (ix1 q)) p q := by
  have hd' := d_spec A s d (d_at m outs c s d hs hd) H0
  have h1 := layer1_spec A X W1 d y1 hd' H1
  have h2 := layer2_spec A X W1 W2 d y1 y2 hd' h1 H2
  exact (head_apply_of (V7 m outs c) y2 Wc bc ((V7_main_v9 m outs c).trans hy2) ((V7_main_arg4 m outs c).trans hWc)
    ((V7_main_arg5 m outs c).trans hbc) p q).trans (head_spec A X W1 W2 Wc bc y2 h2 p q)

end Cert.KernelIdeal.Hand

end
-- ==== Proof.R0Value.lean ====
import proofs.«164609_j68143951118910_1_alg».proof.Proof.R0Dat
import proofs.«164609_j68143951118910_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Idealize.ShloMosaic.ValueIdx
open Cert.KernelIdeal Cert.KernelIdeal.Gen

section Pieces

variable {F : FTy → Type} [FloatOps F]

theorem hz00 : (![0, 0] : Fin 2 → Nat) = fun _ => 0 := funext fun a => by fin_cases a <;> rfl

theorem out0_B_1_eq (c : Dev nD) (i : grid0.Coords) (arg2 : Memref sig .tc .vmem S2048x1024 .f32) (harg2 : arg2.IsWhole)
    (arg3 : Memref sig .tc .vmem S2048x1 .f32) (harg3 : arg3.IsWhole) (hc0 : ¬cond0_0 i)
    (x0 : Vec F S2048x1024 .f32) (xo1 : Vec F S2048x1 .f32) :
    out0_B_1 c i arg2 harg2 arg3 harg3 hc0 x0 xo1 = k0_pay2 xo1 x0 := by
  unfold out0_B_1
  rw [View.read_writes_eq_canon _ _ _ (cover0_B_1 c i arg2 harg2 arg3 harg3 hc0 x0 xo1)]
  unfold kernelRun0_B
  dsimp only
  sl_unfold_words
  rw [View.canon_unit_zero hz00]
  simp only [View.readAt_eq_ld, harg2.read_unread, harg3.read_unread, View.ld_unit_zero (S := S2048x1024) hz00,
    View.ld_unit_zero (S := S2048x1) hz00]

theorem out0_A_1_eq (c : Dev nD) (i : grid0.Coords) (arg2 : Memref sig .tc .vmem S2048x1024 .f32) (harg2 : arg2.IsWhole)
    (arg3 : Memref sig .tc .vmem S2048x1 .f32) (harg3 : arg3.IsWhole) (hc0 : cond0_0 i)
    (x0 : Vec F S2048x1024 .f32) :
    out0_A_1 c i arg2 harg2 arg3 harg3 hc0 x0 = k0_pay2 (k0_pay1 (F := F)) x0 := by
  unfold out0_A_1
  rw [View.read_writes_eq_canon _ _ _ (cover0_A_1 c i arg2 harg2 arg3 harg3 hc0 x0)]
  unfold kernelRun0_A
  dsimp only
  sl_unfold_words
  rw [View.canon_cons_unit_zero (S := S2048x1) hz00]
  simp only [View.readAt_eq_ld, harg2.read_unread, View.ld_unit_zero (S := S2048x1024) hz00,
    View.readCov_unit_zero (S := S2048x1) _ hz00]

end Pieces

theorem shapeCast_col_apply {α : Type} (v : S2048.Idx → α) (h : S2048.ShapeCasts S2048x1) (p : Fin 2048) (u : Fin 1) :
    shapeCast S2048x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

theorem k0_pay1_apply (p : Fin 2048) : k0_pay1 (F := Ideal) (ix2 p (0 : Fin 1)) = 0 := by
  unfold k0_pay1
  exact Ideal.ofBits_zero_f32

theorem laneSum_apply (v5 : Vec Ideal S2048x1024 .f32) (h : S2048x1024.Reduces [1] S2048) (hφ : FKind.Formats .f32)
    (hacc : (0x00000000#32 : BitVec 32) = 0x00000000#32) (p : Fin 2048) :
    multiReduction (F := Ideal) .add [1] S2048 v5 0x00000000#32 h hφ hacc (ix1 p) = ∑ j : Fin 1024, v5 (ix2 p j) := by
  refine (Ideal.multiReduction_add_single v5 0x00000000#32 h hφ hacc (ix1 p)).trans ?_
  refine Finset.sum_congr rfl fun j _ => congrArg v5 ?_
  funext a
  match a with
  | ⟨0, _⟩ => rfl
  | ⟨1, _⟩ => rfl

theorem k0_pay2_apply (v3 : Vec Ideal S2048x1 .f32) (v5 : Vec Ideal S2048x1024 .f32) (p : Fin 2048) :
    k0_pay2 (F := Ideal) v3 v5 (ix2 p (0 : Fin 1)) = v3 (ix2 p 0) + ∑ j : Fin 1024, v5 (ix2 p j) := by
  unfold k0_pay2
  show shapeCast S2048x1 v3 _ (ix2 p 0) + shapeCast S2048x1 (multiReduction (F := Ideal) .add [1] S2048 v5 0x00000000#32 _ _ _) _ (ix2 p 0) = _
  rw [shapeCast_self]
  refine congrArg (v3 (ix2 p 0) + ·) ?_
  refine (shapeCast_col_apply _ _ p 0).trans ?_
  exact laneSum_apply v5 _ _ _ p

section Value

variable (V : (c : Dev nD) → (b : Ref sig .tc) → Buf (Elt Ideal) ((c : Thread nD τ).loc b))

abbrev adj (c : Dev nD) : Vec Ideal S8192x8192 .f32 := V c main_arg0

abbrev ablk (c : Dev nD) (t : Fin cfg0.N) : Vec Ideal S2048x1024 .f32 := iblk0 V c 0 t

theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)

theorem idx0_1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

theorem ablk_apply (c : Dev nD) (t : Fin cfg0.N) (p : Fin 2048) (j : Fin 1024) (r k : Fin 8192)
    (hr : r.val = t.val / 8 * 2048 + p.val) (hk : k.val = t.val % 8 * 1024 + j.val) :
    ablk V c t (ix2 p j) = adj V c (ix2 r k) := by
  obtain ⟨e0, e1⟩ := idx0_0 t
  unfold ablk iblk0
  rw [View.read_apply]
  show V c main_arg0 (((cfg0.win 0).blk t).view.emb (ix2 p j)) = V c main_arg0 (ix2 r k)
  refine congrArg (V c main_arg0) ?_
  funext a
  apply Fin.ext
  match a with
  | ⟨0, _⟩ => show win0_0.index t (0 : Fin 2) * 2048 + 1 * p.val = r.val; omega
  | ⟨1, _⟩ => show win0_0.index t (1 : Fin 2) * 1024 + 1 * j.val = k.val; omega

def rowAt (n : ℕ) (hn : n < cfg0.N) (p : Fin 2048) : Fin 8192 :=
  ⟨n / 8 * 2048 + p.val, by have : n < 32 := lt_of_lt_of_eq hn N_0; have := p.isLt; omega⟩

def blockSum (c : Dev nD) (r : Fin 8192) (kb : Fin 8) : EReal := ∑ j : Fin 1024, adj V c (ix2 r (Cert.Spec.col kb j))

theorem ablk_rowSum (c : Dev nD) (t : Fin cfg0.N) (p : Fin 2048) :
    ∑ j : Fin 1024, ablk V c t (ix2 p j) = blockSum V c (rowAt t.val t.isLt p) ⟨t.val % 8, Nat.mod_lt _ (by decide)⟩ :=
  Finset.sum_congr rfl fun j _ => ablk_apply V c t p j _ _ rfl rfl

theorem outsAt0_first (c : Dev nD) (t : Fin cfg0.N) (h0 : t.val % 8 = 0) (p : Fin 2048) :
    outsAt0 V c t.val t.isLt (ix2 p (0 : Fin 1)) = ∑ j : Fin 1024, ablk V c t (ix2 p j) := by
  rw [outsAt0_A V c t h0]
  refine (congrFun (out0_A_1_eq (F := Ideal) c (grid0.coords t) (ms0_0 t) (hs0_0 t) (ms0_1 t) (hs0_1 t)
    ((hcond0_0 t).mpr h0) (ablk V c t)) (ix2 p (0 : Fin 1))).trans ?_
  refine (k0_pay2_apply (k0_pay1 (F := Ideal)) (ablk V c t) p).trans ?_
  rw [k0_pay1_apply, zero_add]

theorem outsAt0_later (c : Dev nD) (t : Fin cfg0.N) (h0 : ¬t.val % 8 = 0) (p : Fin 2048) :
    outsAt0 V c t.val t.isLt (ix2 p (0 : Fin 1))
      = outsAt0 V c (t.val - 1) (Nat.lt_of_le_of_lt (Nat.sub_le _ _) t.isLt) (ix2 p (0 : Fin 1)) + ∑ j : Fin 1024, ablk V c t (ix2 p j) := by
  rw [outsAt0_B V c t h0]
  refine (congrFun (out0_B_1_eq (F := Ideal) c (grid0.coords t) (ms0_0 t) (hs0_0 t) (ms0_1 t) (hs0_1 t)
    (fun h => h0 ((hcond0_0 t).mp h)) (ablk V c t) (outsAt0 V c (t.val - 1) (Nat.lt_of_le_of_lt (Nat.sub_le _ _) t.isLt))) (ix2 p (0 : Fin 1))).trans ?_
  exact k0_pay2_apply (outsAt0 V c (t.val - 1) (Nat.lt_of_le_of_lt (Nat.sub_le _ _) t.isLt)) (ablk V c t) p

theorem psum_first (g : Fin 8 → EReal) (k : ℕ) (hk : k = 0) :
    ∑ kb ∈ Finset.univ.filter (fun kb : Fin 8 => kb.val ≤ k), g kb = g ⟨k, by omega⟩ := by
  subst hk
  have e : Finset.univ.filter (fun kb : Fin 8 => kb.val ≤ 0) = {(⟨0, by omega⟩ : Fin 8)} := by
    ext kb; simp only [Finset.mem_filter, Finset.mem_univ, true_and, Finset.mem_singleton, Fin.ext_iff]; omega
  rw [e, Finset.sum_singleton]

theorem psum_step (g : Fin 8 → EReal) (k k' : ℕ) (hk' : k' < 8) (e : k' = k + 1) :
    (∑ kb ∈ Finset.univ.filter (fun kb : Fin 8 => kb.val ≤ k), g kb) + g ⟨k', hk'⟩
      = ∑ kb ∈ Finset.univ.filter (fun kb : Fin 8 => kb.val ≤ k'), g kb := by
  subst e
  have e' : Finset.univ.filter (fun kb : Fin 8 => kb.val ≤ k + 1)
      = insert (⟨k + 1, hk'⟩ : Fin 8) (Finset.univ.filter (fun kb : Fin 8 => kb.val ≤ k)) := by
    ext kb; simp only [Finset.mem_filter, Finset.mem_univ, true_and, Finset.mem_insert, Fin.ext_iff]; omega
  rw [e', Finset.sum_insert (by simp only [Finset.mem_filter, Finset.mem_univ, true_and]; omega), add_comm]

theorem psum_all (g : Fin 8 → EReal) (k : ℕ) (hk : k = 7) :
    ∑ kb ∈ Finset.univ.filter (fun kb : Fin 8 => kb.val ≤ k), g kb = ∑ kb : Fin 8, g kb := by
  subst hk
  rw [Finset.filter_true_of_mem fun kb _ => by have := kb.isLt; omega]

theorem outsAt0_apply (c : Dev nD) (n : ℕ) : ∀ (hn : n < cfg0.N) (p : Fin 2048),
    outsAt0 V c n hn (ix2 p (0 : Fin 1))
      = ∑ kb ∈ Finset.univ.filter (fun kb : Fin 8 => kb.val ≤ n % 8), blockSum V c (rowAt n hn p) kb := by
  induction n with
  | zero =>
    intro hn p
    refine (outsAt0_first V c ⟨0, hn⟩ rfl p).trans ?_
    rw [ablk_rowSum]
    exact (psum_first _ _ rfl).symm
  | succ n ih =>
    intro hn p
    by_cases h0 : (n + 1) % 8 = 0
    · refine (outsAt0_first V c ⟨n + 1, hn⟩ h0 p).trans ?_
      rw [ablk_rowSum]
      exact (psum_first _ _ h0).symm
    · refine (outsAt0_later V c ⟨n + 1, hn⟩ h0 p).trans ?_
      rw [ablk_rowSum]
      show outsAt0 V c n (Nat.lt_of_succ_lt hn) (ix2 p (0 : Fin 1)) + _ = _
      have hr : rowAt n (Nat.lt_of_succ_lt hn) p = rowAt (n + 1) hn p :=
        Fin.ext (by show n / 8 * 2048 + p.val = (n + 1) / 8 * 2048 + p.val; omega)
      rw [ih (Nat.lt_of_succ_lt hn) p, hr]
      exact psum_step _ (n % 8) ((n + 1) % 8) _ (by omega)

def rowSums (c : Dev nD) : Vec Ideal S8192x1 .f32 := fun i => Cert.Spec.rowSum (fun p k => adj V c (ix2 p k)) (i 0)

theorem oblk_read_apply (t : Fin cfg0.N) (G : Vec Ideal S8192x1 .f32) (y : S2048x1.Idx) (r : Fin 8192)
    (hr : r.val = t.val / 8 * 2048 + (y 0).val) :
    ((cfg0.win 1).blk t).view.read (Elt Ideal) G y = G (ix2 r (0 : Fin 1)) := by
  obtain ⟨e0, e1⟩ := idx0_1 t
  rw [View.read_apply]
  refine congrArg G ?_
  funext a
  apply Fin.ext
  have h1 : (y 1).val < 1 := (y 1).isLt
  match a with
  | ⟨0, _⟩ => show win0_1.index t (0 : Fin 2) * 2048 + 1 * (y 0).val = r.val; omega
  | ⟨1, _⟩ => show win0_1.index t (1 : Fin 2) * 1 + 1 * (y 1).val = 0; omega

theorem flushed0_1 (c : Dev nD) (t : Fin cfg0.N) (hf : (cfg0.win 1).flush t = true) :
    (dat0 V c).flushed 1 t = ((cfg0.win 1).blk t).view.read (Elt Ideal) (rowSums V c) := by
  have h7 : t.val % 8 = 7 := (flush0_1 t).mp hf
  show (cfg0.win 1).cut (grid0.coords t) ((dat0 V c).after 1 t) = _
  rw [after0_1]
  funext y
  have h1 : (y 1).val < 1 := (y 1).isLt
  obtain ⟨p, hp⟩ : ∃ p : Fin 2048, p.val = (y 0).val := ⟨⟨(y 0).val, (y 0).isLt⟩, rfl⟩
  have hy : (cfg0.win 1).xinj (grid0.coords t) y = ix2 p (0 : Fin 1) := funext fun a => by
    match a with
    | ⟨0, _⟩ => exact Fin.ext hp.symm
    | ⟨1, _⟩ => exact Fin.ext (by show (y 1).val = 0; omega)
  refine Eq.trans ?_ (oblk_read_apply t (rowSums V c) y (rowAt t.val t.isLt p)
    (by show t.val / 8 * 2048 + p.val = _; rw [hp])).symm
  show outsAt0 V c t.val t.isLt ((cfg0.win 1).xinj (grid0.coords t) y) = _
  rw [hy, outsAt0_apply V c t.val t.isLt p, psum_all _ _ h7]
  exact (Cert.Spec.sum_blocks fun k => adj V c (ix2 (rowAt t.val t.isLt p) k)).symm

theorem cover0_1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ : ∃ t : Fin cfg0.N, t.val = 8 * ((i 0).val / 2048) + 7 :=
    ⟨⟨8 * ((i 0).val / 2048) + 7, by rw [show cfg0.N = 32 from N_0]; omega⟩, rfl⟩
  obtain ⟨e0, e1⟩ := idx0_1 t
  refine ⟨t, (flush0_1 t).mpr (by omega), ?_⟩
  show i ∈ ((View.whole main_v0).slice (win0_1.rect t)).set
  rw [View.set_slice_whole, Rect.mem_set_unit]
  intro a
  match a with
  | ⟨0, _⟩ =>
    show win0_1.index t (0 : Fin 2) * 2048 ≤ (i 0).val ∧ (i 0).val < win0_1.index t (0 : Fin 2) * 2048 + 2048
    omega
  | ⟨1, _⟩ =>
    show win0_1.index t (1 : Fin 2) * 1 ≤ (i 1).val ∧ (i 1).val < win0_1.index t (1 : Fin 2) * 1 + 1
    omega

end Value

theorem arr0_final (V : (c : Dev nD) → (b : Ref sig .tc) → Buf (Elt Ideal) ((c : Thread nD τ).loc b)) (c : Dev nD) (p : Fin 8192) :
    (dat0 (F := Ideal) V c).arrAt 1 cfg0.N (ix2 p (0 : Fin 1)) = Cert.Spec.rowSum (fun p k => V c main_arg0 (ix2 p k)) p :=
  congrFun ((dat0 (F := Ideal) V c).arrAt_eq_of_cover 1 (rowSums V c) (flushed0_1 V c) cover0_1) (ix2 p (0 : Fin 1))

end Cert.KernelIdeal.Hand
end
-- ==== Proof.LayerPay.lean ====
import proofs.«164609_j68143951118910_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_xw_0 (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl

theorem lhs_xw_1 (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q

theorem rhs_xw_0 (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q

theorem rhs_xw_1 (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

theorem matmul_xw_apply (x : FVec Ideal S1024x64 .bf16) (w : FVec Ideal S64x64 .bf16) (j : Fin 1024) (q : Fin 64) :
    matmul (F := Ideal) dot_S1024x64_S64x64_S1024x64_1_0_0_1_n_n none x w (constant (F := Ideal) S1024x64 .f32 0x00000000#32) (ix2 j q)
      = ∑ i : Fin 64, x (ix2 j i) * w (ix2 i q) := by
  simp only [matmul]
  rw [Ideal.matmul_constant_zero_apply, ← Equiv.sum_comp (contrEquiv1 dot_S1024x64_S64x64_S1024x64_1_0_0_1_n_n 64 rfl rfl).symm]
  refine Finset.sum_congr rfl fun k _ => ?_
  have hk := contrEquiv1_symm_val dot_S1024x64_S64x64_S1024x64_1_0_0_1_n_n 64 rfl rfl k
  have el : dot_S1024x64_S64x64_S1024x64_1_0_0_1_n_n.lhsIdx (ix2 j q) ((contrEquiv1 dot_S1024x64_S64x64_S1024x64_1_0_0_1_n_n 64 rfl rfl).symm k) = ix2 j k := funext fun a => Fin.ext (by
    match a with
    | ⟨0, _⟩ => exact lhs_xw_0 _ _
    | ⟨1, _⟩ => exact (lhs_xw_1 _ _).trans hk)
  have er : dot_S1024x64_S64x64_S1024x64_1_0_0_1_n_n.rhsIdx (ix2 j q) ((contrEquiv1 dot_S1024x64_S64x64_S1024x64_1_0_0_1_n_n 64 rfl rfl).symm k) = ix2 k q := funext fun a => Fin.ext (by
    match a with
    | ⟨0, _⟩ => exact (rhs_xw_0 _ _).trans hk
    | ⟨1, _⟩ => exact rhs_xw_1 _ _)
  rw [el, er]

theorem lhs_ah_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl

theorem lhs_ah_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q

theorem rhs_ah_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q

theorem rhs_ah_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

theorem matmul_ah_apply (a : FVec Ideal S2048x1024 .bf16) (h : FVec Ideal S1024x64 .bf16) (p : Fin 2048) (q : Fin 64) :
    matmul (F := Ideal) dot_S2048x1024_S1024x64_S2048x64_1_0_0_1_n_n none a h (constant (F := Ideal) S2048x64 .f32 0x00000000#32) (ix2 p q)
      = ∑ j : Fin 1024, a (ix2 p j) * h (ix2 j q) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q) ((contrEquiv1 dot_S2048x1024_S1024x64_S2048x64_1_0_0_1_n_n 1024 rfl rfl).symm k) = ix2 p k := funext fun a => Fin.ext (by
    match a with
    | ⟨0, _⟩ => exact lhs_ah_0 _ _
    | ⟨1, _⟩ => exact (lhs_ah_1 _ _).trans hk)
  have er : dot_S2048x1024_S1024x64_S2048x64_1_0_0_1_n_n.rhsIdx (ix2 p q) ((contrEquiv1 dot_S2048x1024_S1024x64_S2048x64_1_0_0_1_n_n 1024 rfl rfl).symm k) = ix2 k q := funext fun a => Fin.ext (by
    match a with
    | ⟨0, _⟩ => exact (rhs_ah_0 _ _).trans hk
    | ⟨1, _⟩ => exact rhs_ah_1 _ _)
  rw [el, er]

theorem k1_pay1_apply (p : Fin 2048) (q : Fin 64) : k1_pay1 (F := Ideal) (ix2 p q) = 0 := by
  unfold k1_pay1
  refine (congrFun (shapeCast_self _ _) (ix2 p q)).trans ?_
  exact Ideal.ofBits_zero_f32

theorem k1_pay2_apply (x : Vec Ideal S1024x64 .f32) (w : Vec Ideal S64x64 .f32) (dk : Vec Ideal S1024x1 .f32)
    (a : Vec Ideal S2048x1024 .f32) (acc : Vec Ideal S2048x64 .f32) (p : Fin 2048) (q : Fin 64) :
    k1_pay2 x w dk a acc (ix2 p q)
      = acc (ix2 p q) + ∑ j : Fin 1024, a (ix2 p j) * ((∑ i : Fin 64, x (ix2 j i) * w (ix2 i q)) * dk (ix2 j (0 : Fin 1))) := by
  unfold k1_pay2
  refine (congrFun (shapeCast_self _ _) (ix2 p q)).trans ?_
  refine (addf_apply _ _ _).trans ?_
  refine congrArg (acc (ix2 p q) + ·) ?_
  refine (matmul_ah_apply _ _ p q).trans ?_
  refine Finset.sum_congr rfl fun j _ => ?_
  refine congrArg (a (ix2 p j) * ·) ?_
  refine (mulf_apply _ _ _).trans ?_
  refine congrArg₂ (· * ·) (matmul_xw_apply _ _ j q) ?_
  refine (broadcastTo_a1_ab_apply _ _ j q).trans ?_
  exact congrFun (shapeCast_self _ _) (ix2 j (0 : Fin 1))

theorem k1_pay3_apply (di : Vec Ideal S2048x1 .f32) (acc : Vec Ideal S2048x64 .f32) (p : Fin 2048) (q : Fin 64) :
    k1_pay3 di acc (ix2 p q) = max (di (ix2 p (0 : Fin 1)) * acc (ix2 p q)) 0 := by
  unfold k1_pay3
  refine (maximumf_apply _ _ _).trans ?_
  refine congrArg₂ max ?_ Ideal.ofBits_zero_f32
  refine (mulf_apply _ _ _).trans ?_
  refine congrArg (· * acc (ix2 p q)) ?_
  refine (broadcastTo_a1_ab_apply _ _ p q).trans ?_
  exact congrFun (shapeCast_self _ _) (ix2 p (0 : Fin 1))

end Cert.KernelIdeal.Hand
-- ==== Proof.R1Value.lean ====
import proofs.«164609_j68143951118910_1_alg».proof.Proof.R1Dat
import proofs.«164609_j68143951118910_1_alg».proof.Proof.LayerPay
import proofs.«164609_j68143951118910_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

section Blocks

variable (V : (c : Dev nD) → (b : Ref sig .tc) → Buf (Elt F) ((c : Thread nD τ).loc b))

abbrev arrA_r1 (c : Dev nD) : Vec F S8192x8192 .f32 := V c main_arg0
abbrev arrX_r1 (c : Dev nD) : Vec F S8192x64 .f32 := V c main_arg1
abbrev arrW_r1 (c : Dev nD) : Vec F S64x64 .f32 := V c main_arg2
abbrev arrD_r1 (c : Dev nD) : Vec F S8192x1 .f32 := V c main_v7

def row_r1 (rb : Fin 4) (p : Fin 2048) : Fin 8192 := ⟨rb.val * 2048 + p.val, by have := rb.isLt; have := p.isLt; omega⟩

theorem idx_facts_r1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

theorem iblk1_0_apply (c : Dev nD) (t : Fin cfg1.N) (rb : Fin 4) (kb : Fin 8) (ht : t.val = 8 * rb.val + kb.val) (p : Fin 2048) (j : Fin 1024) :
    (iblk1 V c 0 t : Vec F S2048x1024 .f32) (ix2 p j) = arrA_r1 V c (ix2 (row_r1 rb p) (Cert.Spec.col kb j)) := by
  obtain ⟨e0, e1, -⟩ := idx_facts_r1 t
  unfold iblk1
  rw [View.read_apply]
  show (V c main_arg0 : Vec F S8192x8192 .f32) _ = _
  congr 1
  funext a
  apply Fin.ext
  have := rb.isLt; have := kb.isLt
  match a with
  | ⟨0, _⟩ => show win1_0.index t (0 : Fin 2) * 2048 + 1 * p.val = rb.val * 2048 + p.val; rw [e0]; omega
  | ⟨1, _⟩ => show win1_0.index t (1 : Fin 2) * 1024 + 1 * j.val = kb.val * 1024 + j.val; rw [e1]; omega

theorem iblk1_1_apply (c : Dev nD) (t : Fin cfg1.N) (rb : Fin 4) (kb : Fin 8) (ht : t.val = 8 * rb.val + kb.val) (j : Fin 1024) (i : Fin 64) :
    (iblk1 V c 1 t : Vec F S1024x64 .f32) (ix2 j i) = arrX_r1 V c (ix2 (Cert.Spec.col kb j) i) := by
  obtain ⟨-, -, e0, e1, -⟩ := idx_facts_r1 t
  unfold iblk1
  rw [View.read_apply]
  show (V c main_arg1 : Vec F S8192x64 .f32) _ = _
  congr 1
  funext a
  apply Fin.ext
  have := rb.isLt; have := kb.isLt
  match a with
  | ⟨0, _⟩ => show win1_1.index t (0 : Fin 2) * 1024 + 1 * j.val = kb.val * 1024 + j.val; rw [e0]; omega
  | ⟨1, _⟩ => show win1_1.index t (1 : Fin 2) * 64 + 1 * i.val = i.val; rw [e1]; omega

theorem iblk1_2_apply (c : Dev nD) (t : Fin cfg1.N) (i : Fin 64) (q : Fin 64) :
    (iblk1 V c 2 t : Vec F S64x64 .f32) (ix2 i q) = arrW_r1 V c (ix2 i q) := by
  obtain ⟨-, -, -, -, e0, e1, -⟩ := idx_facts_r1 t
  unfold iblk1
  rw [View.read_apply]
  show (V c main_arg2 : Vec F S64x64 .f32) _ = _
  congr 1
  funext a
  apply Fin.ext
  match a with
  | ⟨0, _⟩ => show win1_2.index t (0 : Fin 2) * 64 + 1 * i.val = i.val; rw [e0]; omega
  | ⟨1, _⟩ => show win1_2.index t (1 : Fin 2) * 64 + 1 * q.val = q.val; rw [e1]; omega

theorem iblk1_3_apply (c : Dev nD) (t : Fin cfg1.N) (rb : Fin 4) (kb : Fin 8) (ht : t.val = 8 * rb.val + kb.val) (j : Fin 1024) :
    (iblk1 V c 3 t : Vec F S1024x1 .f32) (ix2 j (0 : Fin 1)) = arrD_r1 V c (ix2 (Cert.Spec.col kb j) (0 : Fin 1)) := by
  obtain ⟨-, -, -, -, -, -, e0, e1, -⟩ := idx_facts_r1 t
  unfold iblk1
  rw [View.read_apply]
  show (V c main_v7 : Vec F S8192x1 .f32) _ = _
  congr 1
  funext a
  apply Fin.ext
  have := rb.isLt; have := kb.isLt
  match a with
  | ⟨0, _⟩ => show win1_3.index t (0 : Fin 2) * 1024 + 1 * j.val = kb.val * 1024 + j.val; rw [e0]; omega
  | ⟨1, _⟩ => show win1_3.index t (1 : Fin 2) * 1 + 1 * 0 = 0; rw [e1]

theorem iblk1_4_apply (c : Dev nD) (t : Fin cfg1.N) (rb : Fin 4) (kb : Fin 8) (ht : t.val = 8 * rb.val + kb.val) (p : Fin 2048) :
    (iblk1 V c 4 t : Vec F S2048x1 .f32) (ix2 p (0 : Fin 1)) = arrD_r1 V c (ix2 (row_r1 rb p) (0 : Fin 1)) := by
  obtain ⟨-, -, -, -, -, -, -, -, e0, e1, -⟩ := idx_facts_r1 t
  unfold iblk1
  rw [View.read_apply]
  show (V c main_v7 : Vec F S8192x1 .f32) _ = _
  congr 1
  funext a
  apply Fin.ext
  have := rb.isLt; have := kb.isLt
  match a with
  | ⟨0, _⟩ => show win1_4.index t (0 : Fin 2) * 2048 + 1 * p.val = rb.val * 2048 + p.val; rw [e0]; omega
  | ⟨1, _⟩ => show win1_4.index t (1 : Fin 2) * 1 + 1 * 0 = 0; rw [e1]

end Blocks

section Accumulate

variable (V : (c : Dev nD) → (b : Ref sig .tc) → Buf (Elt Ideal) ((c : Thread nD τ).loc b))

def bterm_r1 (c : Dev nD) (rb : Fin 4) (kb : Fin 8) (p : Fin 2048) (q : Fin 64) : EReal :=
  ∑ j : Fin 1024, arrA_r1 V c (ix2 (row_r1 rb p) (Cert.Spec.col kb j))
    * ((∑ i : Fin 64, arrX_r1 V c (ix2 (Cert.Spec.col kb j) i) * arrW_r1 V c (ix2 i q))
        * arrD_r1 V c (ix2 (Cert.Spec.col kb j) (0 : Fin 1)))

def acc_r1 (c : Dev nD) (rb : Fin 4) : (m : ℕ) → m < 8 → Fin 2048 → Fin 64 → EReal
  | 0, h => fun p q => bterm_r1 V c rb ⟨0, h⟩ p q
  | m + 1, h => fun p q => acc_r1 c rb m (Nat.lt_of_succ_lt h) p q + bterm_r1 V c rb ⟨m + 1, h⟩ p q

theorem acc_r1_last (c : Dev nD) (rb : Fin 4) (p : Fin 2048) (q : Fin 64) :
    acc_r1 V c rb 7 (by decide) p q = ∑ kb : Fin 8, bterm_r1 V c rb kb p q := by
  rw [Fin.sum_univ_eight]; rfl

theorem step_r1 (c : Dev nD) (t : Fin cfg1.N) (rb : Fin 4) (kb : Fin 8) (ht : t.val = 8 * rb.val + kb.val)
    (xs : Vec Ideal S2048x64 .f32) (p : Fin 2048) (q : Fin 64) :
    k1_pay2 (iblk1 V c 1 t) (iblk1 V c 2 t) (iblk1 V c 3 t) (iblk1 V c 0 t) xs (ix2 p q) = xs (ix2 p q) + bterm_r1 V c rb kb p q := by
  refine (k1_pay2_apply (iblk1 V c 1 t) (iblk1 V c 2 t) (iblk1 V c 3 t) (iblk1 V c 0 t) xs p q).trans ?_
  refine congrArg (xs (ix2 p q) + ·) ?_
  unfold bterm_r1
  refine Finset.sum_congr rfl fun j _ => ?_
  rw [iblk1_0_apply V c t rb kb ht p j, iblk1_3_apply V c t rb kb ht j]
  refine congrArg (fun z => arrA_r1 V c (ix2 (row_r1 rb p) (Cert.Spec.col kb j)) * (z * arrD_r1 V c (ix2 (Cert.Spec.col kb j) (0 : Fin 1)))) ?_
  refine Finset.sum_congr rfl fun i _ => ?_
  rw [iblk1_1_apply V c t rb kb ht j i, iblk1_2_apply V c t i q]

theorem scratch_r1 (c : Dev nD) (rb : Fin 4) (m : ℕ) (hm : m < 8) : ∀ t : Fin cfg1.N, t.val = 8 * rb.val + m →
    ∀ (p : Fin 2048) (q : Fin 64), (outsAt1 V c t.val t.isLt).2 (ix2 p q) = acc_r1 V c rb m hm p q := by
  induction m with
  | zero =>
    intro t ht p q
    have h0 : t.val % 8 = 0 := by omega
    have h1 : ¬t.val % 8 = 7 := by omega
    rw [outsAt1_A V c t h0 h1]
    unfold layerLeaves; dsimp only
    refine (congrFun (layerAcc_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) (ix2 p q)).trans ?_
    refine (step_r1 V c t rb ⟨0, hm⟩ ht (k1_pay1 (F := Ideal)) p q).trans ?_
    rw [k1_pay1_apply, zero_add]
    rfl
  | succ m ih =>
    intro t ht p q
    have h0 : ¬t.val % 8 = 0 := by omega
    have hprev := ih (Nat.lt_of_succ_lt hm) ⟨t.val - 1, Nat.lt_of_le_of_lt (Nat.sub_le _ _) t.isLt⟩ (by (try dsimp only); omega) p q
    by_cases h1 : t.val % 8 = 7
    · rw [outsAt1_C V c t h0 h1]
      unfold layerLeaves; dsimp only
      refine (congrFun (layerAcc_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
      refine (step_r1 V c t rb ⟨m + 1, hm⟩ ht (outsAt1 V c (t.val - 1) (Nat.lt_of_le_of_lt (Nat.sub_le _ _) t.isLt)).2 p q).trans ?_
      exact congrArg (· + bterm_r1 V c rb ⟨m + 1, hm⟩ p q) hprev
    · rw [outsAt1_B V c t h0 h1]
      unfold layerLeaves; dsimp only
      refine (congrFun (layerAcc_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
      refine (step_r1 V c t rb ⟨m + 1, hm⟩ ht (outsAt1 V c (t.val - 1) (Nat.lt_of_le_of_lt (Nat.sub_le _ _) t.isLt)).2 p q).trans ?_
      exact congrArg (· + bterm_r1 V c rb ⟨m + 1, hm⟩ p q) hprev

def layer_r1 (c : Dev nD) (p : Fin 8192) (q : Fin 64) : EReal :=
  max (arrD_r1 V c (ix2 p (0 : Fin 1)) * ∑ k : Fin 8192, arrA_r1 V c (ix2 p k) * ((∑ i : Fin 64, arrX_r1 V c (ix2 k i) * arrW_r1 V c (ix2 i q)) * arrD_r1 V c (ix2 k (0 : Fin 1)))) 0

def G_r1 (c : Dev nD) : Vec Ideal S8192x64 .f32 := fun i => layer_r1 V c (i 0) (i 1)

theorem out_r1 (c : Dev nD) (t : Fin cfg1.N) (rb : Fin 4) (ht : t.val = 8 * rb.val + 7) (p : Fin 2048) (q : Fin 64) :
    (outsAt1 V c t.val t.isLt).1 (ix2 p q) = max (arrD_r1 V c (ix2 (row_r1 rb p) (0 : Fin 1)) * ∑ kb : Fin 8, bterm_r1 V c rb kb p q) 0 := by
  have h0 : ¬t.val % 8 = 0 := by omega
  have h1 : t.val % 8 = 7 := by omega
  have hs := scratch_r1 V c rb 6 (by decide) ⟨t.val - 1, Nat.lt_of_le_of_lt (Nat.sub_le _ _) t.isLt⟩ (by (try dsimp only); omega) p q
  rw [outsAt1_C V c t h0 h1]
  unfold layerLeaves; dsimp only
  refine (congrFun (layerOut_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) (ix2 p q)).trans ?_
  refine (k1_pay3_apply (iblk1 V c 4 t) (k1_pay2 (iblk1 V c 1 t) (iblk1 V c 2 t) (iblk1 V c 3 t) (iblk1 V c 0 t) (outsAt1 V c (t.val - 1) (Nat.lt_of_le_of_lt (Nat.sub_le _ _) t.isLt)).2) p q).trans ?_
  rw [iblk1_4_apply V c t rb ⟨7, by decide⟩ ht p, step_r1 V c t rb ⟨7, by decide⟩ ht (outsAt1 V c (t.val - 1) (Nat.lt_of_le_of_lt (Nat.sub_le _ _) t.isLt)).2 p q, hs, ← acc_r1_last]
  rfl

theorem flushed_r1 (c : Dev nD) (t : Fin cfg1.N) (hf : (cfg1.win 5).flush t = true) :
    (dat1 (F := Ideal) V c).flushed 5 t = ((cfg1.win 5).blk t).view.read (Elt Ideal) (G_r1 V c) := by
  have h7 : t.val % 8 = 7 := (flush1_5 t).mp hf
  have hN : t.val < 32 := lt_of_lt_of_eq t.isLt (show cfg1.N = 32 from N_1)
  obtain ⟨-, -, -, -, -, -, -, -, -, -, e0, e1⟩ := idx_facts_r1 t
  show (cfg1.win 5).cut (grid1.coords t) ((dat1 V c).after 5 t) = _
  rw [after1_5]
  funext y
  obtain ⟨p, q, rfl⟩ : ∃ (p : Fin 2048) (q : Fin 64), y = ix2 p q := ⟨y 0, y 1, eq_ix2 (n0 := 2048) (n1 := 64) y⟩
  rw [View.read_apply]
  show (outsAt1 V c t.val t.isLt).1 (ix2 p q) = G_r1 V c (((cfg1.win 5).blk t).view.emb (ix2 p q))
  rw [out_r1 V c t ⟨t.val / 8, by omega⟩ (by dsimp only; omega) p q]
  have hemb : ((cfg1.win 5).blk t).view.emb (ix2 p q) = ix2 (row_r1 ⟨t.val / 8, by omega⟩ p) q := by
    funext a
    apply Fin.ext
    match a with
    | ⟨0, _⟩ => show win1_5.index t (0 : Fin 2) * 2048 + 1 * p.val = t.val / 8 * 2048 + p.val; rw [e0]; omega
    | ⟨1, _⟩ => show win1_5.index t (1 : Fin 2) * 64 + 1 * q.val = q.val; rw [e1]; omega
  rw [hemb]
  show _ = layer_r1 V c (row_r1 ⟨t.val / 8, by omega⟩ p) q
  unfold layer_r1
  rw [Cert.Spec.sum_blocks]
  rfl

theorem mem_blk_r1 (t : Fin cfg1.N) (i : S8192x64.Idx) :
    i ∈ ((cfg1.win 5).blk t).view.set ↔ ∀ a : Fin 2, win1_5.index t a * S2048x64.size a ≤ (i a).val ∧ (i a).val < win1_5.index t a * S2048x64.size a + S2048x64.size a := by
  show i ∈ ((View.whole main_v8).slice (win1_5.rect t)).set ↔ _
  rw [View.set_slice_whole, Rect.mem_set_unit]
  exact Iff.rfl

theorem cover_r1 (i : S8192x64.Idx) : ∃ t : Fin cfg1.N, (cfg1.win 5).flush t = true ∧ i ∈ ((cfg1.win 5).blk t).view.set := by
  have hi0 : (i 0).val < 8192 := (i 0).isLt
  have hi1 : (i 1).val < 64 := (i 1).isLt
  have hN : cfg1.N = 32 := N_1
  have hlt : 8 * ((i 0).val / 2048) + 7 < cfg1.N := by omega
  obtain ⟨-, -, -, -, -, -, -, -, -, -, e0, e1⟩ := idx_facts_r1 ⟨8 * ((i 0).val / 2048) + 7, hlt⟩
  refine ⟨⟨8 * ((i 0).val / 2048) + 7, hlt⟩, (flush1_5 _).mpr (by dsimp only; omega), ?_⟩
  rw [mem_blk_r1]
  intro a
  match a with
  | ⟨0, _⟩ =>
    show win1_5.index ⟨8 * ((i 0).val / 2048) + 7, hlt⟩ (0 : Fin 2) * 2048 ≤ (i 0).val ∧ (i 0).val < win1_5.index ⟨8 * ((i 0).val / 2048) + 7, hlt⟩ (0 : Fin 2) * 2048 + 2048
    rw [e0]; dsimp only; omega
  | ⟨1, _⟩ =>
    show win1_5.index ⟨8 * ((i 0).val / 2048) + 7, hlt⟩ (1 : Fin 2) * 64 ≤ (i 1).val ∧ (i 1).val < win1_5.index ⟨8 * ((i 0).val / 2048) + 7, hlt⟩ (1 : Fin 2) * 64 + 64
    rw [e1]; omega

theorem arr1_final_G (c : Dev nD) : (dat1 (F := Ideal) V c).arrAt 5 cfg1.N = G_r1 V c :=
  (dat1 (F := Ideal) V c).arrAt_eq_of_cover 5 (G_r1 V c) (flushed_r1 V c) cover_r1

end Accumulate

theorem arr1_final (V : (c : Dev nD) → (b : Ref sig .tc) → Buf (Elt Ideal) ((c : Thread nD τ).loc b)) (c : Dev nD) (p : Fin 8192) (q : Fin 64) :
    (dat1 (F := Ideal) V c).arrAt 5 cfg1.N (ix2 p q)
      = max (arrD_r1 V c (ix2 p (0 : Fin 1)) * ∑ k : Fin 8192, arrA_r1 V c (ix2 p k) * ((∑ i : Fin 64, arrX_r1 V c (ix2 k i) * arrW_r1 V c (ix2 i q)) * arrD_r1 V c (ix2 k (0 : Fin 1)))) 0 :=
  congrFun (arr1_final_G V c) (ix2 p q)

end Cert.KernelIdeal.Hand

end
-- ==== Proof.R2Value.lean ====
import proofs.«164609_j68143951118910_1_alg».proof.Proof.R2Dat
import proofs.«164609_j68143951118910_1_alg».proof.Proof.LayerPay
import proofs.«164609_j68143951118910_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

section Blocks

variable (V : (c : Dev nD) → (b : Ref sig .tc) → Buf (Elt F) ((c : Thread nD τ).loc b))

abbrev arrA_r2 (c : Dev nD) : Vec F S8192x8192 .f32 := V c main_arg0
abbrev arrX_r2 (c : Dev nD) : Vec F S8192x64 .f32 := V c main_v8
abbrev arrW_r2 (c : Dev nD) : Vec F S64x64 .f32 := V c main_arg3
abbrev arrD_r2 (c : Dev nD) : Vec F S8192x1 .f32 := V c main_v7

def row_r2 (rb : Fin 4) (p : Fin 2048) : Fin 8192 := ⟨rb.val * 2048 + p.val, by have := rb.isLt; have := p.isLt; omega⟩

theorem idx_facts_r2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = 0 ∧ win2_2.index t (1 : Fin 2) = 0
    ∧ win2_3.index t (0 : Fin 2) = t.val % 8 ∧ win2_3.index t (1 : Fin 2) = 0
    ∧ win2_4.index t (0 : Fin 2) = t.val / 8 ∧ win2_4.index t (1 : Fin 2) = 0
    ∧ win2_5.index t (0 : Fin 2) = t.val / 8 ∧ win2_5.index t (1 : Fin 2) = 0 :=
  (by decide +kernel : ∀ t : Fin grid2.N, _)

theorem iblk2_0_apply (c : Dev nD) (t : Fin cfg2.N) (rb : Fin 4) (kb : Fin 8) (ht : t.val = 8 * rb.val + kb.val) (p : Fin 2048) (j : Fin 1024) :
    (iblk2 V c 0 t : Vec F S2048x1024 .f32) (ix2 p j) = arrA_r2 V c (ix2 (row_r2 rb p) (Cert.Spec.col kb j)) := by
  obtain ⟨e0, e1, -⟩ := idx_facts_r2 t
  unfold iblk2
  rw [View.read_apply]
  show (V c main_arg0 : Vec F S8192x8192 .f32) _ = _
  congr 1
  funext a
  apply Fin.ext
  have := rb.isLt; have := kb.isLt
  match a with
  | ⟨0, _⟩ => show win2_0.index t (0 : Fin 2) * 2048 + 1 * p.val = rb.val * 2048 + p.val; rw [e0]; omega
  | ⟨1, _⟩ => show win2_0.index t (1 : Fin 2) * 1024 + 1 * j.val = kb.val * 1024 + j.val; rw [e1]; omega

theorem iblk2_1_apply (c : Dev nD) (t : Fin cfg2.N) (rb : Fin 4) (kb : Fin 8) (ht : t.val = 8 * rb.val + kb.val) (j : Fin 1024) (i : Fin 64) :
    (iblk2 V c 1 t : Vec F S1024x64 .f32) (ix2 j i) = arrX_r2 V c (ix2 (Cert.Spec.col kb j) i) := by
  obtain ⟨-, -, e0, e1, -⟩ := idx_facts_r2 t
  unfold iblk2
  rw [View.read_apply]
  show (V c main_v8 : Vec F S8192x64 .f32) _ = _
  congr 1
  funext a
  apply Fin.ext
  have := rb.isLt; have := kb.isLt
  match a with
  | ⟨0, _⟩ => show win2_1.index t (0 : Fin 2) * 1024 + 1 * j.val = kb.val * 1024 + j.val; rw [e0]; omega
  | ⟨1, _⟩ => show win2_1.index t (1 : Fin 2) * 64 + 1 * i.val = i.val; rw [e1]; omega

theorem iblk2_2_apply (c : Dev nD) (t : Fin cfg2.N) (i : Fin 64) (q : Fin 64) :
    (iblk2 V c 2 t : Vec F S64x64 .f32) (ix2 i q) = arrW_r2 V c (ix2 i q) := by
  obtain ⟨-, -, -, -, e0, e1, -⟩ := idx_facts_r2 t
  unfold iblk2
  rw [View.read_apply]
  show (V c main_arg3 : Vec F S64x64 .f32) _ = _
  congr 1
  funext a
  apply Fin.ext
  match a with
  | ⟨0, _⟩ => show win2_2.index t (0 : Fin 2) * 64 + 1 * i.val = i.val; rw [e0]; omega
  | ⟨1, _⟩ => show win2_2.index t (1 : Fin 2) * 64 + 1 * q.val = q.val; rw [e1]; omega

theorem iblk2_3_apply (c : Dev nD) (t : Fin cfg2.N) (rb : Fin 4) (kb : Fin 8) (ht : t.val = 8 * rb.val + kb.val) (j : Fin 1024) :
    (iblk2 V c 3 t : Vec F S1024x1 .f32) (ix2 j (0 : Fin 1)) = arrD_r2 V c (ix2 (Cert.Spec.col kb j) (0 : Fin 1)) := by
  obtain ⟨-, -, -, -, -, -, e0, e1, -⟩ := idx_facts_r2 t
  unfold iblk2
  rw [View.read_apply]
  show (V c main_v7 : Vec F S8192x1 .f32) _ = _
  congr 1
  funext a
  apply Fin.ext
  have := rb.isLt; have := kb.isLt
  match a with
  | ⟨0, _⟩ => show win2_3.index t (0 : Fin 2) * 1024 + 1 * j.val = kb.val * 1024 + j.val; rw [e0]; omega
  | ⟨1, _⟩ => show win2_3.index t (1 : Fin 2) * 1 + 1 * 0 = 0; rw [e1]

theorem iblk2_4_apply (c : Dev nD) (t : Fin cfg2.N) (rb : Fin 4) (kb : Fin 8) (ht : t.val = 8 * rb.val + kb.val) (p : Fin 2048) :
    (iblk2 V c 4 t : Vec F S2048x1 .f32) (ix2 p (0 : Fin 1)) = arrD_r2 V c (ix2 (row_r2 rb p) (0 : Fin 1)) := by
  obtain ⟨-, -, -, -, -, -, -, -, e0, e1, -⟩ := idx_facts_r2 t
  unfold iblk2
  rw [View.read_apply]
  show (V c main_v7 : Vec F S8192x1 .f32) _ = _
  congr 1
  funext a
  apply Fin.ext
  have := rb.isLt; have := kb.isLt
  match a with
  | ⟨0, _⟩ => show win2_4.index t (0 : Fin 2) * 2048 + 1 * p.val = rb.val * 2048 + p.val; rw [e0]; omega
  | ⟨1, _⟩ => show win2_4.index t (1 : Fin 2) * 1 + 1 * 0 = 0; rw [e1]

end Blocks

section Accumulate

variable (V : (c : Dev nD) → (b : Ref sig .tc) → Buf (Elt Ideal) ((c : Thread nD τ).loc b))

def bterm_r2 (c : Dev nD) (rb : Fin 4) (kb : Fin 8) (p : Fin 2048) (q : Fin 64) : EReal :=
  ∑ j : Fin 1024, arrA_r2 V c (ix2 (row_r2 rb p) (Cert.Spec.col kb j))
    * ((∑ i : Fin 64, arrX_r2 V c (ix2 (Cert.Spec.col kb j) i) * arrW_r2 V c (ix2 i q))
        * arrD_r2 V c (ix2 (Cert.Spec.col kb j) (0 : Fin 1)))

def acc_r2 (c : Dev nD) (rb : Fin 4) : (m : ℕ) → m < 8 → Fin 2048 → Fin 64 → EReal
  | 0, h => fun p q => bterm_r2 V c rb ⟨0, h⟩ p q
  | m + 1, h => fun p q => acc_r2 c rb m (Nat.lt_of_succ_lt h) p q + bterm_r2 V c rb ⟨m + 1, h⟩ p q

theorem acc_r2_last (c : Dev nD) (rb : Fin 4) (p : Fin 2048) (q : Fin 64) :
    acc_r2 V c rb 7 (by decide) p q = ∑ kb : Fin 8, bterm_r2 V c rb kb p q := by
  rw [Fin.sum_univ_eight]; rfl

theorem step_r2 (c : Dev nD) (t : Fin cfg2.N) (rb : Fin 4) (kb : Fin 8) (ht : t.val = 8 * rb.val + kb.val)
    (xs : Vec Ideal S2048x64 .f32) (p : Fin 2048) (q : Fin 64) :
    k1_pay2 (iblk2 V c 1 t) (iblk2 V c 2 t) (iblk2 V c 3 t) (iblk2 V c 0 t) xs (ix2 p q) = xs (ix2 p q) + bterm_r2 V c rb kb p q := by
  refine (k1_pay2_apply (iblk2 V c 1 t) (iblk2 V c 2 t) (iblk2 V c 3 t) (iblk2 V c 0 t) xs p q).trans ?_
  refine congrArg (xs (ix2 p q) + ·) ?_
  unfold bterm_r2
  refine Finset.sum_congr rfl fun j _ => ?_
  rw [iblk2_0_apply V c t rb kb ht p j, iblk2_3_apply V c t rb kb ht j]
  refine congrArg (fun z => arrA_r2 V c (ix2 (row_r2 rb p) (Cert.Spec.col kb j)) * (z * arrD_r2 V c (ix2 (Cert.Spec.col kb j) (0 : Fin 1)))) ?_
  refine Finset.sum_congr rfl fun i _ => ?_
  rw [iblk2_1_apply V c t rb kb ht j i, iblk2_2_apply V c t i q]

theorem scratch_r2 (c : Dev nD) (rb : Fin 4) (m : ℕ) (hm : m < 8) : ∀ t : Fin cfg2.N, t.val = 8 * rb.val + m →
    ∀ (p : Fin 2048) (q : Fin 64), (outsAt2 V c t.val t.isLt).2 (ix2 p q) = acc_r2 V c rb m hm p q := by
  induction m with
  | zero =>
    intro t ht p q
    have h0 : t.val % 8 = 0 := by omega
    have h1 : ¬t.val % 8 = 7 := by omega
    rw [outsAt2_A V c t h0 h1]
    unfold layerLeaves; dsimp only
    refine (congrFun (layerAcc_A (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) (ix2 p q)).trans ?_
    refine (step_r2 V c t rb ⟨0, hm⟩ ht (k1_pay1 (F := Ideal)) p q).trans ?_
    rw [k1_pay1_apply, zero_add]
    rfl
  | succ m ih =>
    intro t ht p q
    have h0 : ¬t.val % 8 = 0 := by omega
    have hprev := ih (Nat.lt_of_succ_lt hm) ⟨t.val - 1, Nat.lt_of_le_of_lt (Nat.sub_le _ _) t.isLt⟩ (by (try dsimp only); omega) p q
    by_cases h1 : t.val % 8 = 7
    · rw [outsAt2_C V c t h0 h1]
      unfold layerLeaves; dsimp only
      refine (congrFun (layerAcc_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) (ix2 p q)).trans ?_
      refine (step_r2 V c t rb ⟨m + 1, hm⟩ ht (outsAt2 V c (t.val - 1) (Nat.lt_of_le_of_lt (Nat.sub_le _ _) t.isLt)).2 p q).trans ?_
      exact congrArg (· + bterm_r2 V c rb ⟨m + 1, hm⟩ p q) hprev
    · rw [outsAt2_B V c t h0 h1]
      unfold layerLeaves; dsimp only
      refine (congrFun (layerAcc_B (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) (ix2 p q)).trans ?_
      refine (step_r2 V c t rb ⟨m + 1, hm⟩ ht (outsAt2 V c (t.val - 1) (Nat.lt_of_le_of_lt (Nat.sub_le _ _) t.isLt)).2 p q).trans ?_
      exact congrArg (· + bterm_r2 V c rb ⟨m + 1, hm⟩ p q) hprev

def layer_r2 (c : Dev nD) (p : Fin 8192) (q : Fin 64) : EReal :=
  max (arrD_r2 V c (ix2 p (0 : Fin 1)) * ∑ k : Fin 8192, arrA_r2 V c (ix2 p k) * ((∑ i : Fin 64, arrX_r2 V c (ix2 k i) * arrW_r2 V c (ix2 i q)) * arrD_r2 V c (ix2 k (0 : Fin 1)))) 0

def G_r2 (c : Dev nD) : Vec Ideal S8192x64 .f32 := fun i => layer_r2 V c (i 0) (i 1)

theorem out_r2 (c : Dev nD) (t : Fin cfg2.N) (rb : Fin 4) (ht : t.val = 8 * rb.val + 7) (p : Fin 2048) (q : Fin 64) :
    (outsAt2 V c t.val t.isLt).1 (ix2 p q) = max (arrD_r2 V c (ix2 (row_r2 rb p) (0 : Fin 1)) * ∑ kb : Fin 8, bterm_r2 V c rb kb p q) 0 := by
  have h0 : ¬t.val % 8 = 0 := by omega
  have h1 : t.val % 8 = 7 := by omega
  have hs := scratch_r2 V c rb 6 (by decide) ⟨t.val - 1, Nat.lt_of_le_of_lt (Nat.sub_le _ _) t.isLt⟩ (by (try dsimp only); omega) p q
  rw [outsAt2_C V c t h0 h1]
  unfold layerLeaves; dsimp only
  refine (congrFun (layerOut_C (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) (ix2 p q)).trans ?_
  refine (k1_pay3_apply (iblk2 V c 4 t) (k1_pay2 (iblk2 V c 1 t) (iblk2 V c 2 t) (iblk2 V c 3 t) (iblk2 V c 0 t) (outsAt2 V c (t.val - 1) (Nat.lt_of_le_of_lt (Nat.sub_le _ _) t.isLt)).2) p q).trans ?_
  rw [iblk2_4_apply V c t rb ⟨7, by decide⟩ ht p, step_r2 V c t rb ⟨7, by decide⟩ ht (outsAt2 V c (t.val - 1) (Nat.lt_of_le_of_lt (Nat.sub_le _ _) t.isLt)).2 p q, hs, ← acc_r2_last]
  rfl

theorem flushed_r2 (c : Dev nD) (t : Fin cfg2.N) (hf : (cfg2.win 5).flush t = true) :
    (dat2 (F := Ideal) V c).flushed 5 t = ((cfg2.win 5).blk t).view.read (Elt Ideal) (G_r2 V c) := by
  have h7 : t.val % 8 = 7 := (flush2_5 t).mp hf
  have hN : t.val < 32 := lt_of_lt_of_eq t.isLt (show cfg2.N = 32 from N_2)
  obtain ⟨-, -, -, -, -, -, -, -, -, -, e0, e1⟩ := idx_facts_r2 t
  show (cfg2.win 5).cut (grid2.coords t) ((dat2 V c).after 5 t) = _
  rw [after2_5]
  funext y
  obtain ⟨p, q, rfl⟩ : ∃ (p : Fin 2048) (q : Fin 64), y = ix2 p q := ⟨y 0, y 1, eq_ix2 (n0 := 2048) (n1 := 64) y⟩
  rw [View.read_apply]
  show (outsAt2 V c t.val t.isLt).1 (ix2 p q) = G_r2 V c (((cfg2.win 5).blk t).view.emb (ix2 p q))
  rw [out_r2 V c t ⟨t.val / 8, by omega⟩ (by dsimp only; omega) p q]
  have hemb : ((cfg2.win 5).blk t).view.emb (ix2 p q) = ix2 (row_r2 ⟨t.val / 8, by omega⟩ p) q := by
    funext a
    apply Fin.ext
    match a with
    | ⟨0, _⟩ => show win2_5.index t (0 : Fin 2) * 2048 + 1 * p.val = t.val / 8 * 2048 + p.val; rw [e0]; omega
    | ⟨1, _⟩ => show win2_5.index t (1 : Fin 2) * 64 + 1 * q.val = q.val; rw [e1]; omega
  rw [hemb]
  show _ = layer_r2 V c (row_r2 ⟨t.val / 8, by omega⟩ p) q
  unfold layer_r2
  rw [Cert.Spec.sum_blocks]
  rfl

theorem mem_blk_r2 (t : Fin cfg2.N) (i : S8192x64.Idx) :
    i ∈ ((cfg2.win 5).blk t).view.set ↔ ∀ a : Fin 2, win2_5.index t a * S2048x64.size a ≤ (i a).val ∧ (i a).val < win2_5.index t a * S2048x64.size a + S2048x64.size a := by
  show i ∈ ((View.whole main_v9).slice (win2_5.rect t)).set ↔ _
  rw [View.set_slice_whole, Rect.mem_set_unit]
  exact Iff.rfl

theorem cover_r2 (i : S8192x64.Idx) : ∃ t : Fin cfg2.N, (cfg2.win 5).flush t = true ∧ i ∈ ((cfg2.win 5).blk t).view.set := by
  have hi0 : (i 0).val < 8192 := (i 0).isLt
  have hi1 : (i 1).val < 64 := (i 1).isLt
  have hN : cfg2.N = 32 := N_2
  have hlt : 8 * ((i 0).val / 2048) + 7 < cfg2.N := by omega
  obtain ⟨-, -, -, -, -, -, -, -, -, -, e0, e1⟩ := idx_facts_r2 ⟨8 * ((i 0).val / 2048) + 7, hlt⟩
  refine ⟨⟨8 * ((i 0).val / 2048) + 7, hlt⟩, (flush2_5 _).mpr (by dsimp only; omega), ?_⟩
  rw [mem_blk_r2]
  intro a
  match a with
  | ⟨0, _⟩ =>
    show win2_5.index ⟨8 * ((i 0).val / 2048) + 7, hlt⟩ (0 : Fin 2) * 2048 ≤ (i 0).val ∧ (i 0).val < win2_5.index ⟨8 * ((i 0).val / 2048) + 7, hlt⟩ (0 : Fin 2) * 2048 + 2048
    rw [e0]; dsimp only; omega
  | ⟨1, _⟩ =>
    show win2_5.index ⟨8 * ((i 0).val / 2048) + 7, hlt⟩ (1 : Fin 2) * 64 ≤ (i 1).val ∧ (i 1).val < win2_5.index ⟨8 * ((i 0).val / 2048) + 7, hlt⟩ (1 : Fin 2) * 64 + 64
    rw [e1]; omega

theorem arr2_final_G (c : Dev nD) : (dat2 (F := Ideal) V c).arrAt 5 cfg2.N = G_r2 V c :=
  (dat2 (F := Ideal) V c).arrAt_eq_of_cover 5 (G_r2 V c) (flushed_r2 V c) cover_r2

end Accumulate

theorem arr2_final (V : (c : Dev nD) → (b : Ref sig .tc) → Buf (Elt Ideal) ((c : Thread nD τ).loc b)) (c : Dev nD) (p : Fin 8192) (q : Fin 64) :
    (dat2 (F := Ideal) V c).arrAt 5 cfg2.N (ix2 p q)
      = max (arrD_r2 V c (ix2 p (0 : Fin 1)) * ∑ k : Fin 8192, arrA_r2 V c (ix2 p k) * ((∑ i : Fin 64, arrX_r2 V c (ix2 k i) * arrW_r2 V c (ix2 i q)) * arrD_r2 V c (ix2 k (0 : Fin 1)))) 0 :=
  congrFun (arr2_final_G V c) (ix2 p q)

end Cert.KernelIdeal.Hand

end
-- ==== Proof.RefIsSpec.lean ====
import proofs.«164609_j68143951118910_1_alg».proof.Proof.Gen.ReferenceIdeal.Run
import proofs.«164609_j68143951118910_1_alg».proof.Proof.Gen.ReferenceIdeal.Read
import proofs.«164609_j68143951118910_1_alg».proof.Proof.Spec
import proofs.«164609_j68143951118910_1_alg».proof.Proof.DScal
import Idealize.ShloMosaic.Lib.ValueIdx

noncomputable section

namespace Cert.ReferenceIdeal.RefSpec

open Cert.ReferenceIdeal Cert.ReferenceIdeal.Gen Cert.ReferenceIdeal.Read
open Idealize.ShloMosaic Idealize.ShloMosaic.ValueIdx

variable (x0 : (⟨S8192x8192, .f32⟩ : BufTy).Contents (Elt Ideal)) (x1 : (⟨S8192x64, .f32⟩ : BufTy).Contents (Elt Ideal))
  (x2 x3 : (⟨S64x64, .f32⟩ : BufTy).Contents (Elt Ideal)) (x4 : (⟨S64x10, .f32⟩ : BufTy).Contents (Elt Ideal))
  (x5 : (⟨S10, .f32⟩ : BufTy).Contents (Elt Ideal))

local notation "A₀" => (fun (p k : Fin 8192) => x0 (ix2 p k))

local notation "d₀" => (fun (p : Fin 8192) => Cert.dScalE (Cert.Spec.rowSum A₀ p))

local notation "X₀" => (fun (p : Fin 8192) (j : Fin 64) => x1 (ix2 p j))
local notation "W₁" => (fun (j q : Fin 64) => x2 (ix2 j q))
local notation "W₂" => (fun (j q : Fin 64) => x3 (ix2 j q))

theorem rowsum_at (p : Fin 8192) : val_main_v0 (F := Ideal) x0 (ix1 p) = Cert.Spec.rowSum A₀ p := by
  rw [val_main_v0_apply, val_main_cst_apply, Ideal.ofBits_def, Ideal.ofBits_zero_f32, zero_add]
  unfold Cert.Spec.rowSum
  exact Finset.sum_congr rfl fun k _ => congrArg x0 (funext fun a => Fin.ext (by match a with | ⟨0, _⟩ => rfl | ⟨1, _⟩ => rfl))

theorem d_at (p : Fin 8192) : val_main_v7 (F := Ideal) x0 (ix1 p) = d₀ p := by
  rw [val_main_v7_apply, val_main_v2_apply, val_main_v6_apply, val_main_v5_apply, val_main_v4_apply,
    val_main_v1_apply, val_main_v3_apply, val_main_call0_v1_apply, val_main_call1_v1_apply,
    val_main_call0_v0_apply, val_main_call1_v0_apply,
    val_main_cst_0_apply, val_main_cst_1_apply, val_main_cst_2_apply, val_main_cst_3_apply, rowsum_at]
  rfl

theorem dcol11_at (p : Fin 8192) (q : Fin 64) : val_main_v11 (F := Ideal) x0 (ix2 p q) = d₀ p := by
  rw [val_main_v11_apply, val_main_v10_apply, ← d_at]
  exact congrArg _ (funext fun a => Fin.ext (by match a with | ⟨0, _⟩ => rfl))
theorem dcol14_at (p : Fin 8192) (q : Fin 64) : val_main_v14 (F := Ideal) x0 (ix2 p q) = d₀ p := by
  rw [val_main_v14_apply, val_main_v9_apply, ← d_at]
  exact congrArg _ (funext fun a => Fin.ext (by match a with | ⟨0, _⟩ => rfl))
theorem dcol20_at (p : Fin 8192) (q : Fin 64) : val_main_v20 (F := Ideal) x0 (ix2 p q) = d₀ p := by
  rw [val_main_v20_apply, val_main_v19_apply, ← d_at]
  exact congrArg _ (funext fun a => Fin.ext (by match a with | ⟨0, _⟩ => rfl))
theorem dcol23_at (p : Fin 8192) (q : Fin 64) : val_main_v23 (F := Ideal) x0 (ix2 p q) = d₀ p := by
  rw [val_main_v23_apply, val_main_v18_apply, ← d_at]
  exact congrArg _ (funext fun a => Fin.ext (by match a with | ⟨0, _⟩ => rfl))

theorem feat1_at (k : Fin 8192) (q : Fin 64) :
    val_main_v8 (F := Ideal) x1 x2 (ix2 k q) = Cert.Spec.feat X₀ W₁ k q := by
  rw [val_main_v8_apply]
  unfold Cert.Spec.feat
  exact Finset.sum_congr rfl fun j _ => congrArg₂ (· * ·) (congrArg x1 (funext fun a => Fin.ext (by match a with | ⟨0, _⟩ => rfl | ⟨1, _⟩ => rfl))) (congrArg x2 (funext fun a => Fin.ext (by match a with | ⟨0, _⟩ => rfl | ⟨1, _⟩ => rfl)))

theorem scaled1_at (k : Fin 8192) (q : Fin 64) :
    val_main_v12 (F := Ideal) x0 x1 x2 (ix2 k q) = d₀ k * Cert.Spec.feat X₀ W₁ k q := by
  rw [val_main_v12_apply, Ideal.mulf_def, dcol11_at, feat1_at]

theorem agg1_at (p : Fin 8192) (q : Fin 64) :
    val_main_v13 (F := Ideal) x0 x1 x2 (ix2 p q) = ∑ k : Fin 8192, A₀ p k * (d₀ k * Cert.Spec.feat X₀ W₁ k q) := by
  rw [val_main_v13_apply]
  refine Finset.sum_congr rfl fun k _ => ?_
  rw [show ridx_main_v13 (ix2 p q) k = ix2 k q from funext fun a => Fin.ext (by match a with | ⟨0, _⟩ => rfl | ⟨1, _⟩ => rfl), scaled1_at]
  exact congrArg (· * _) (congrArg x0 (funext fun a => Fin.ext (by match a with | ⟨0, _⟩ => rfl | ⟨1, _⟩ => rfl)))

theorem layer1_at (p : Fin 8192) (q : Fin 64) :
    val_main_v16 (F := Ideal) x0 x1 x2 (ix2 p q) = Cert.Spec.layer A₀ d₀ X₀ W₁ p q := by
  rw [val_main_v16_apply, val_main_v15_apply, val_main_call2_v0_apply, val_main_call2_cst_apply,
    Ideal.maximumf_def, Ideal.mulf_def, Ideal.ofBits_def, Ideal.ofBits_zero_f32, dcol14_at, agg1_at]
  rfl

theorem feat2_at (k : Fin 8192) (q : Fin 64) :
    val_main_v17 (F := Ideal) x0 x1 x2 x3 (ix2 k q) = Cert.Spec.feat (Cert.Spec.layer A₀ d₀ X₀ W₁) W₂ k q := by
  rw [val_main_v17_apply]
  unfold Cert.Spec.feat
  refine Finset.sum_congr rfl fun j _ => ?_
  rw [show lidx_main_v17 (ix2 k q) j = ix2 k j from funext fun a => Fin.ext (by match a with | ⟨0, _⟩ => rfl | ⟨1, _⟩ => rfl), layer1_at]
  exact congrArg (_ * ·) (congrArg x3 (funext fun a => Fin.ext (by match a with | ⟨0, _⟩ => rfl | ⟨1, _⟩ => rfl)))

theorem scaled2_at (k : Fin 8192) (q : Fin 64) :
    val_main_v21 (F := Ideal) x0 x1 x2 x3 (ix2 k q) = d₀ k * Cert.Spec.feat (Cert.Spec.layer A₀ d₀ X₀ W₁) W₂ k q := by
  rw [val_main_v21_apply, Ideal.mulf_def, dcol20_at, feat2_at]

theorem agg2_at (p : Fin 8192) (q : Fin 64) :
    val_main_v22 (F := Ideal) x0 x1 x2 x3 (ix2 p q)
      = ∑ k : Fin 8192, A₀ p k * (d₀ k * Cert.Spec.feat (Cert.Spec.layer A₀ d₀ X₀ W₁) W₂ k q) := by
  rw [val_main_v22_apply]
  refine Finset.sum_congr rfl fun k _ => ?_
  rw [show ridx_main_v22 (ix2 p q) k = ix2 k q from funext fun a => Fin.ext (by match a with | ⟨0, _⟩ => rfl | ⟨1, _⟩ => rfl), scaled2_at]
  exact congrArg (· * _) (congrArg x0 (funext fun a => Fin.ext (by match a with | ⟨0, _⟩ => rfl | ⟨1, _⟩ => rfl)))

theorem layer2_at (p : Fin 8192) (q : Fin 64) :
    val_main_v25 (F := Ideal) x0 x1 x2 x3 (ix2 p q) = Cert.Spec.layer A₀ d₀ (Cert.Spec.layer A₀ d₀ X₀ W₁) W₂ p q := by
  rw [val_main_v25_apply, val_main_v24_apply, val_main_call3_v0_apply, val_main_call3_cst_apply,
    Ideal.maximumf_def, Ideal.mulf_def, Ideal.ofBits_def, Ideal.ofBits_zero_f32, dcol23_at, agg2_at]
  rfl

theorem ref_result (p : Fin 8192) (q : Fin 10) :
    val_main_v29 (F := Ideal) x0 x1 x2 x3 x4 x5 (ix2 p q)
      = Cert.Spec.result Cert.dScalE (fun p k => x0 (ix2 p k)) (fun p j => x1 (ix2 p j)) (fun j q => x2 (ix2 j q)) (fun j q => x3 (ix2 j q)) (fun j q => x4 (ix2 j q)) (fun q => x5 (ix1 q)) p q := by
  rw [val_main_v29_apply, Ideal.addf_def, val_main_v26_apply, val_main_v28_apply, val_main_v27_apply]
  show _ = (∑ j : Fin 64, Cert.Spec.layer A₀ d₀ (Cert.Spec.layer A₀ d₀ X₀ W₁) W₂ p j * x4 (ix2 j q)) + x5 (ix1 q)
  refine congrArg₂ (· + ·) (Finset.sum_congr rfl fun j _ => ?_) (congrArg x5 (funext fun a => Fin.ext (by match a with | ⟨0, _⟩ => rfl)))
  rw [show lidx_main_v26 (ix2 p q) j = ix2 p j from funext fun a => Fin.ext (by match a with | ⟨0, _⟩ => rfl | ⟨1, _⟩ => rfl), layer2_at]
  exact congrArg (_ * ·) (congrArg x4 (funext fun a => Fin.ext (by match a with | ⟨0, _⟩ => rfl | ⟨1, _⟩ => rfl)))

end Cert.ReferenceIdeal.RefSpec

end
-- ==== Proof.Algebraic.lean ====
import proofs.«164609_j68143951118910_1_alg».proof.Defs
import proofs.«164609_j68143951118910_1_alg».proof.Proof.Gen.Pre_finite_inputs
import proofs.«164609_j68143951118910_1_alg».proof.Proof.Run
import proofs.«164609_j68143951118910_1_alg».proof.Proof.Bridge
import proofs.«164609_j68143951118910_1_alg».proof.Proof.R0Value
import proofs.«164609_j68143951118910_1_alg».proof.Proof.R1Value
import proofs.«164609_j68143951118910_1_alg».proof.Proof.R2Value
import proofs.«164609_j68143951118910_1_alg».proof.Proof.RefIsSpec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

open Idealize.ShloMosaic.ValueIdx

theorem rows_left (c : Dev nD) (p : Fin 8192) :
    outs m 1 main_v0 c (ix2 p (0 : Fin 1)) = Cert.Spec.rowSum (fun p k => V0 m c main_arg0 (ix2 p k)) p := by
  rw [outs_v0]
  exact arr0_final (Vr0 m) c p

theorem entry1_d (c : Dev nD) : arrD_r1 (Vr5 m) c = V5 m (outs m) c main_v7 := (congrFun (V5_outs m c) _).symm
theorem entry1_A (c : Dev nD) : arrA_r1 (Vr5 m) c = m ((c : Thread nD τ).loc main_arg0) := V5_main_arg0 m (outs1 m) c
theorem entry1_X (c : Dev nD) : arrX_r1 (Vr5 m) c = m ((c : Thread nD τ).loc main_arg1) := V5_main_arg1 m (outs1 m) c
theorem entry1_W (c : Dev nD) : arrW_r1 (Vr5 m) c = m ((c : Thread nD τ).loc main_arg2) := V5_main_arg2 m (outs1 m) c

theorem layer1_left (c : Dev nD) (p : Fin 8192) (q : Fin 64) :
    (show (⟨S8192x64, .f32⟩ : BufTy).Contents (Elt Ideal) from outs m 6 main_v8 c) (ix2 p q)
      = max ((show (⟨S8192x1, .f32⟩ : BufTy).Contents (Elt Ideal) from V5 m (outs m) c main_v7) (ix2 p (0 : Fin 1))
          * ∑ k : Fin 8192, (show (⟨S8192x8192, .f32⟩ : BufTy).Contents (Elt Ideal) from m ((c : Thread nD τ).loc main_arg0)) (ix2 p k)
            * ((∑ i : Fin 64, (show (⟨S8192x64, .f32⟩ : BufTy).Contents (Elt Ideal) from m ((c : Thread nD τ).loc main_arg1)) (ix2 k i)
                  * (show (⟨S64x64, .f32⟩ : BufTy).Contents (Elt Ideal) from m ((c : Thread nD τ).loc main_arg2)) (ix2 i q))
              * (show (⟨S8192x1, .f32⟩ : BufTy).Contents (Elt Ideal) from V5 m (outs m) c main_v7) (ix2 k (0 : Fin 1)))) 0 := by
  rw [outs_v8]
  show (dat1 (F := Ideal) (Vr5 m) c).arrAt 5 cfg1.N (ix2 p q) = _
  rw [arr1_final (Vr5 m) c p q, entry1_d m c, entry1_A m c, entry1_X m c, entry1_W m c]

theorem entry2_d (c : Dev nD) : arrD_r2 (Vr6 m) c = V5 m (outs m) c main_v7 :=
  (V6_main_v7 m (outs6 m) c).trans ((congrFun (V5_outs6 m c) _).trans (congrFun (V5_outs m c) _).symm)
theorem entry2_A (c : Dev nD) : arrA_r2 (Vr6 m) c = m ((c : Thread nD τ).loc main_arg0) := V6_main_arg0 m (outs6 m) c
theorem entry2_X (c : Dev nD) : arrX_r2 (Vr6 m) c = outs m 6 main_v8 c :=
  (V6_main_v8 m (outs6 m) c).trans ((outs6_v8 m 6 c).trans (outs_v8 m 6 c).symm)
theorem entry2_W (c : Dev nD) : arrW_r2 (Vr6 m) c = m ((c : Thread nD τ).loc main_arg3) := V6_main_arg3 m (outs6 m) c

theorem layer2_left (c : Dev nD) (p : Fin 8192) (q : Fin 64) :
    (show (⟨S8192x64, .f32⟩ : BufTy).Contents (Elt Ideal) from outs m 7 main_v9 c) (ix2 p q)
      = max ((show (⟨S8192x1, .f32⟩ : BufTy).Contents (Elt Ideal) from V5 m (outs m) c main_v7) (ix2 p (0 : Fin 1))
          * ∑ k : Fin 8192, (show (⟨S8192x8192, .f32⟩ : BufTy).Contents (Elt Ideal) from m ((c : Thread nD τ).loc main_arg0)) (ix2 p k)
            * ((∑ i : Fin 64, (show (⟨S8192x64, .f32⟩ : BufTy).Contents (Elt Ideal) from outs m 6 main_v8 c) (ix2 k i)
                  * (show (⟨S64x64, .f32⟩ : BufTy).Contents (Elt Ideal) from m ((c : Thread nD τ).loc main_arg3)) (ix2 i q))
              * (show (⟨S8192x1, .f32⟩ : BufTy).Contents (Elt Ideal) from V5 m (outs m) c main_v7) (ix2 k (0 : Fin 1)))) 0 := by
  rw [outs_v9]
  show (dat2 (F := Ideal) (Vr6 m) c).arrAt 5 cfg2.N (ix2 p q) = _
  rw [arr2_final (Vr6 m) c p q, entry2_d m c, entry2_A m c, entry2_X m c, entry2_W m c]

theorem kernel_value (c : Dev nD) (p : Fin 8192) (q : Fin 10) :
    V8 m (outs m) c main_v13 (ix2 p q)
      = Cert.Spec.result Cert.dScalE (fun p k => m ((c : Thread nD τ).loc main_arg0) (ix2 p k)) (fun p j => m ((c : Thread nD τ).loc main_arg1) (ix2 p j))
          (fun j q => m ((c : Thread nD τ).loc main_arg2) (ix2 j q)) (fun j q => m ((c : Thread nD τ).loc main_arg3) (ix2 j q))
          (fun j q => m ((c : Thread nD τ).loc main_arg4) (ix2 j q)) (fun q => m ((c : Thread nD τ).loc main_arg5) (ix1 q)) p q :=
  kernel_result m (outs m) c _ _ _ _ _ _ rfl rfl rfl rfl rfl rfl _ _ _ _ rfl rfl rfl rfl
    (rows_left m c) (layer1_left m c) (layer2_left m c) p q

end Cert.KernelIdeal.Hand

namespace Cert.Proof.Claims

open Idealize.ShloMosaic Idealize.ShloMosaic.TcCoe Idealize.SL.Sem Idealize.ShloMosaic.ValueIdx

theorem algebraic : Cert.algebraic_KernelIdeal_ReferenceIdeal := by
  intro m ρ m' ρ' _ hagree
  refine ⟨fun c => Cert.KernelIdeal.Gen.V8 m (Cert.KernelIdeal.Hand.outs m) c Cert.KernelIdeal.main_v13,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  obtain ⟨h0, h1, h2, h3, h4, h5⟩ := hagree c
  rw [h0, h1, h2, h3, h4, h5]
  funext i
  obtain ⟨p, q, rfl⟩ : ∃ (p : Fin 8192) (q : Fin 10), i = ix2 p q := ⟨i 0, i 1, eq_ix2 i⟩
  rw [Cert.ReferenceIdeal.RefSpec.ref_result]
  exact (Cert.KernelIdeal.Hand.kernel_value m c p q).symm

end Cert.Proof.Claims

end
-- ==== Proof.lean ====
import proofs.«164609_j68143951118910_1_alg».proof.Proof.Algebraic
import proofs.«164609_j68143951118910_1_alg».proof.Proof.Run
import proofs.«164609_j68143951118910_1_alg».proof.Proof.Gen.Kernel
import proofs.«164609_j68143951118910_1_alg».proof.Proof.Gen.KernelIdeal
import proofs.«164609_j68143951118910_1_alg».proof.Proof.Gen.ReferenceIdeal
import proofs.«164609_j68143951118910_1_alg».proof.Proof.Gen.Pre_finite_inputs
import Idealize.ShloMosaic.Adequacy
import Idealize.ShloMosaic.Init

noncomputable section

namespace Cert.Proof

open Idealize.ShloMosaic Idealize.SL.Sem Idealize.ShloMosaic.Tactic

-- The word-level program and its idealization are one text under two names: their body tables are the same term.
theorem kernel_defs {F : FTy → Type} [FloatOps F] : Cert.Kernel.defs (F := F) = Cert.KernelIdeal.defs (F := F) := by
  sl_kernel_rfl

-- The frame is proved once, for every float instance; the word-level program is that text at words.
theorem frame_k : Cert.frame_Kernel := fun m ρ _ =>
  kernel_defs (F := Bits) ▸ Cert.KernelIdeal.Hand.frame_all (F := Bits) m ρ

theorem frame_ki : Cert.frame_KernelIdeal := fun m ρ _ => Cert.KernelIdeal.Hand.frame_all m ρ

-- The reference is host operations only: its frame is its run with the result dropped.
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Claims.algebraic⟩

end Cert.Proof

end
